-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x512 : Shape := ⟨3, ![4, 8192, 512]⟩
abbrev S512x512 : Shape := ⟨2, ![512, 512]⟩
abbrev S512 : Shape := ⟨1, ![512]⟩
abbrev S_ : Shape := ⟨0, ![]⟩

class Facts : Prop where
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_arg14 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  main_v73

def fn_part3 {F : FTy → Type} [FloatOps F] (main_arg11 : FVec F S512x512 .f32) (main_arg12 : FVec F S512 .f32) (main_arg13 : FVec F S512x512 .f32) (main_arg14 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_v63 main_v67

def fn_part2 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4x8192x512 .f32) (main_arg1 : FVec F S4x8192x512 .f32) (main_arg2 : FVec F S4x8192x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) : IVec S_ 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_c : IVec S_ 1 := constantI S_ 1 1#1
  let main_v3 : IVec S_ 1 := (fun x v => Host.reduce IntOp.andi x v reducesTo_S4x8192x512_S_d0_1_2 h_S_) main_v2 main_c
  let main_v4 : FVec F S4x8192x512 .f32 := Host.absf main_arg1
  let main_cst_0 : FVec F S_ .f32 := constant S_ .f32 0x7F800000#32
  let main_v5 : FVec F S4x8192x512 .f32 := broadcastInDim S4x8192x512 ![] bcast_S_S4x8192x512 main_cst_0
  let main_v6 : IVec S4x8192x512 1 := cmpf .olt main_v4 main_v5
  let main_c_1 : IVec S_ 1 := constantI S_ 1 1#1
  let main_v7 : IVec S_ 1 := (fun x v => Host.reduce IntOp.andi x v reducesTo_S4x8192x512_S_d0_1_2 h_S_) main_v6 main_c_1
  let main_v8 : IVec S_ 1 := andi main_v3 main_v7
  let main_v9 : FVec F S4x8192x512 .f32 := Host.absf main_arg2
  let main_cst_2 : FVec F S_ .f32 := constant S_ .f32 0x7F800000#32
  let main_v10 : FVec F S4x8192x512 .f32 := broadcastInDim S4x8192x512 ![] bcast_S_S4x8192x512 main_cst_2
  let main_v11 : IVec S4x8192x512 1 := cmpf .olt main_v9 main_v10
  let main_c_3 : IVec S_ 1 := constantI S_ 1 1#1
  let main_v12 : IVec S_ 1 := (fun x v => Host.reduce IntOp.andi x v reducesTo_S4x8192x512_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4x8192x512 : Shape := ⟨3, ![4, 8192, 512]⟩
abbrev S512x512 : Shape := ⟨2, ![512, 512]⟩
abbrev S512 : Shape := ⟨1, ![512]⟩
abbrev S4x512x512 : Shape := ⟨3, ![4, 512, 512]⟩
abbrev S4x1x512 : Shape := ⟨3, ![4, 1, 512]⟩
abbrev S1x1024x512 : Shape := ⟨3, ![1, 1024, 512]⟩
abbrev S1x512x512 : Shape := ⟨3, ![1, 512, 512]⟩
abbrev S1x1x512 : Shape := ⟨3, ![1, 1, 512]⟩
abbrev S1x512 : Shape := ⟨2, ![1, 512]⟩
abbrev S1024x512 : Shape := ⟨2, ![1024, 512]⟩
abbrev S1024x64 : Shape := ⟨2, ![1024, 64]⟩
abbrev S1024 : Shape := ⟨1, ![1024]⟩
abbrev S1024x1 : Shape := ⟨2, ![1024, 1]⟩
abbrev S512x1024 : Shape := ⟨2, ![512, 1024]⟩
abbrev S4x64x64 : Shape := ⟨3, ![4, 64, 64]⟩
abbrev S4x1x64x64 : Shape := ⟨4, ![4, 1, 64, 64]⟩
abbrev S4x8x64x64 : Shape := ⟨4, ![4, 8, 64, 64]⟩
abbrev S4x8x64 : Shape := ⟨3, ![4, 8, 64]⟩
abbrev S1x8x64x64 : Shape := ⟨4, ![1, 8, 64, 64]⟩
abbrev S1x8x64 : Shape := ⟨3, ![1, 8, 64]⟩
abbrev S1x1x64 : Shape := ⟨3, ![1, 1, 64]⟩
abbrev S64 : Shape := ⟨1, ![64]⟩
abbrev S1x64 : Shape := ⟨2, ![1, 64]⟩
abbrev S1x1x64x64 : Shape := ⟨4, ![1, 1, 64, 64]⟩
abbrev S64x64 : Shape := ⟨2, ![64, 64]⟩

abbrev nBuf : Space → Nat
  | .hbm => 68
  | .vmem => 36
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512x512, .bf16⟩
  | .hbm, ⟨17, _⟩ => ⟨S512x512, .f32⟩
  | .hbm, ⟨18, _⟩ => ⟨S512x512, .bf16⟩
  | .hbm, ⟨19, _⟩ => ⟨S512x512, .f32⟩
  | .hbm, ⟨20, _⟩ => ⟨S512x512, .bf16⟩
  | .hbm, ⟨21, _⟩ => ⟨S512x512, .f32⟩
  | .hbm, ⟨22, _⟩ => ⟨S512x512, .bf16⟩
  | .hbm, ⟨23, _⟩ => ⟨S512x512, .f32⟩
  | .hbm, ⟨24, _⟩ => ⟨S512x512, .bf16⟩
  | .hbm, ⟨25, _⟩ => ⟨S512x512, .f32⟩
  | .hbm, ⟨26, _⟩ => ⟨S512x512, .bf16⟩
  | .hbm, ⟨27, _⟩ => ⟨S4x512x512, .f32⟩
  | .hbm, ⟨28, _⟩ => ⟨S4x1x512, .f32⟩
  | .hbm, ⟨29, _⟩ => ⟨S4x512x512, .f32⟩
  | .hbm, ⟨30, _⟩ => ⟨S4x1x512, .f32⟩
  | .hbm, ⟨31, _⟩ => ⟨S4x64x64, .f32⟩
  | .hbm, ⟨32, _⟩ => ⟨S4x64x64, .f32⟩
  | .hbm, ⟨33, _⟩ => ⟨S4x64x64, .f32⟩
  | .hbm, ⟨34, _⟩ => ⟨S4x64x64, .f32⟩
  | .hbm, ⟨35, _⟩ => ⟨S4x64x64, .f32⟩
  | .hbm, ⟨36, _⟩ => ⟨S4x64x64, .f32⟩
  | .hbm, ⟨37, _⟩ => ⟨S4x64x64, .f32⟩
  | .hbm, ⟨38, _⟩ => ⟨S4x64x64, .f32⟩
  | .hbm, ⟨39, _⟩ => ⟨S4x1x64x64, .f32⟩
  | .hbm, ⟨40, _⟩ => ⟨S4x1x64x64, .f32⟩
  | .hbm, ⟨41, _⟩ => ⟨S4x1x64x64, .f32⟩
  | .hbm, ⟨42, _⟩ => ⟨S4x1x64x64, .f32⟩
  | .hbm, ⟨43, _⟩ => ⟨S4x1x64x64, .f32⟩
  | .hbm, ⟨44, _⟩ => ⟨S4x1x64x64, .f32⟩
  | .hbm, ⟨45, _⟩ => ⟨S4x1x64x64, .f32⟩
  | .hbm, ⟨46, _⟩ => ⟨S4x1x64x64, .f32⟩
  | .hbm, ⟨47, _⟩ => ⟨S4x8x64x64, .f32⟩
  | .hbm, ⟨48, _⟩ => ⟨S4x64x64, .f32⟩
  | .hbm, ⟨49, _⟩ => ⟨S4x64x64, .f32⟩
  | .hbm, ⟨50, _⟩ => ⟨S4x64x64, .f32⟩
  | .hbm, ⟨51, _⟩ => ⟨S4x64x64, .f32⟩
  | .hbm, ⟨52, _⟩ => ⟨S4x64x64, .f32⟩
  | .hbm, ⟨53, _⟩ => ⟨S4x64x64, .f32⟩
  | .hbm, ⟨54, _⟩ => ⟨S4x64x64, .f32⟩
  | .hbm, ⟨55, _⟩ => ⟨S4x64x64, .f32⟩
  | .hbm, ⟨56, _⟩ => ⟨S4x1x64x64, .f32⟩
  | .hbm, ⟨57, _⟩ => ⟨S4x1x64x64, .f32⟩
  | .hbm, ⟨58, _⟩ => ⟨S4x1x64x64, .f32⟩
  | .hbm, ⟨59, _⟩ => ⟨S4x1x64x64, .f32⟩
  | .hbm, ⟨60, _⟩ => ⟨S4x1x64x64, .f32⟩
  | .hbm, ⟨61, _⟩ => ⟨S4x1x64x64, .f32⟩
  | .hbm, ⟨62, _⟩ => ⟨S4x1x64x64, .f32⟩
  | .hbm, ⟨63, _⟩ => ⟨S4x1x64x64, .f32⟩
  | .hbm, ⟨64, _⟩ => ⟨S4x8x64x64, .f32⟩
  | .hbm, ⟨65, _⟩ => ⟨S4x8x64, .f32⟩
  | .hbm, ⟨66, _⟩ => ⟨S4x8x64, .f32⟩
  | .hbm, ⟨67, _⟩ => ⟨S4x8192x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S512x512, .bf16⟩
  | .local _ .vmem, ⟨5, _⟩ => ⟨S512, .f32⟩
  | .local _ .vmem, ⟨6, _⟩ => ⟨S512x512, .bf16⟩
  | .local _ .vmem, ⟨7, _⟩ => ⟨S512, .f32⟩
  | .local _ .vmem, ⟨8, _⟩ => ⟨S512x512, .bf16⟩
  | .local _ .vmem, ⟨9, _⟩ => ⟨S512, .f32⟩
  | .local _ .vmem, ⟨10, _⟩ => ⟨S512x512, .bf16⟩
  | .local _ .vmem, ⟨11, _⟩ => ⟨S512, .f32⟩
  | .local _ .vmem, ⟨12, _⟩ => ⟨S1x512x512, .f32⟩
  | .local _ .vmem, ⟨13, _⟩ => ⟨S1x512x512, .f32⟩
  | .local _ .vmem, ⟨14, _⟩ => ⟨S1x1x512, .f32⟩
  | .local _ .vmem, ⟨15, _⟩ => ⟨S1x1x512, .f32⟩
  | .local _ .vmem, ⟨16, _⟩ => ⟨S1x512x512, .f32⟩
  | .local _ .vmem, ⟨17, _⟩ => ⟨S1x512x512, .f32⟩
  | .local _ .vmem, ⟨18, _⟩ => ⟨S1x1x512, .f32⟩
  | .local _ .vmem, ⟨19, _⟩ => ⟨S1x1x512, .f32⟩
  | .local _ .vmem, ⟨20, _⟩ => ⟨S1x1024x512, .f32⟩
  | .local _ .vmem, ⟨21, _⟩ => ⟨S1x1024x512, .f32⟩
  | .local _ .vmem, ⟨22, _⟩ => ⟨S512x512, .bf16⟩
  | .local _ .vmem, ⟨23, _⟩ => ⟨S512, .f32⟩
  | .local _ .vmem, ⟨24, _⟩ => ⟨S1x8x64x64, .f32⟩
  | .local _ .vmem, ⟨25, _⟩ => ⟨S1x8x64x64, .f32⟩
  | .local _ .vmem, ⟨26, _⟩ => ⟨S1x8x64, .f32⟩
  | .local _ .vmem, ⟨27, _⟩ => ⟨S1x8x64, .f32⟩
  | .local _ .vmem, ⟨28, _⟩ => ⟨S1x8x64x64, .f32⟩
  | .local _ .vmem, ⟨29, _⟩ => ⟨S1x8x64x64, .f32⟩
  | .local _ .vmem, ⟨30, _⟩ => ⟨S1x8x64, .f32⟩
  | .local _ .vmem, ⟨31, _⟩ => ⟨S1x8x64, .f32⟩
  | .local _ .vmem, ⟨32, _⟩ => ⟨S512x512, .bf16⟩
  | .local _ .vmem, ⟨33, _⟩ => ⟨S512, .f32⟩
  | .local _ .vmem, ⟨34, _⟩ => ⟨S1x1024x512, .f32⟩
  | .local _ .vmem, ⟨35, _⟩ => ⟨S1x1024x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_v12_2 : Ref sig .tc := ⟨.hbm, 29, rfl⟩
abbrev main_v12_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg9_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc1_sem0_0 : DmaSem sig := 20
abbrev cc1_sem0_1 : DmaSem sig := 21
abbrev cc1_sem1_0 : DmaSem sig := 22
abbrev cc1_sem2_0 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem8_0 : DmaSem sig := 33
abbrev cc1_sem9_0 : DmaSem sig := 34
abbrev cc1_sem9_1 : DmaSem sig := 35

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x8x64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x8x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x8x64x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x8x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 1 → Memref sig .tc .vmem S512x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x1024x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

class Facts₀ : Prop where
  transposes_S512x512_S512x512_1_0 : S512x512.Transposes [1, 0] S512x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  slices_S1024x512_o0_0_S1024x64 : S1024x512.Slices ![0, 0] S1024x64
  reduces_S1024x64_S1024 : S1024x64.Reduces [1] S1024
  shapeCasts_S1024_S1024x1 : S1024.ShapeCasts S1024x1
  broadcasts_S1024x1_S1024x64 : S1024x1.Broadcasts S1024x64
  slices_S1024x512_o0_64_S1024x64 : S1024x512.Slices ![0, 64] S1024x64
  slices_S1024x512_o0_128_S1024x64 : S1024x512.Slices ![0, 128] S1024x64
  slices_S1024x512_o0_192_S1024x64 : S1024x512.Slices ![0, 192] S1024x64
  slices_S1024x512_o0_256_S1024x64 : S1024x512.Slices ![0, 256] S1024x64
  slices_S1024x512_o0_320_S1024x64 : S1024x512.Slices ![0, 320] S1024x64
  slices_S1024x512_o0_384_S1024x64 : S1024x512.Slices ![0, 384] S1024x64
  slices_S1024x512_o0_448_S1024x64 : S1024x512.Slices ![0, 448] S1024x64
  concatenates_S1024x64_S1024x64_S1024x64_S1024x64_S1024x64_S1024x64_S1024x64_S1024x64_S1024x512_d1 : Shape.Concatenates [S1024x64, S1024x64, S1024x64, S1024x64, S1024x64, S1024x64, S1024x64, S1024x64] S1024x512 1
  transposes_S1024x512_p1_0_S512x1024 : S1024x512.Transposes [1, 0] S512x1024
  reduces_S1024x512_S512 : S1024x512.Reduces [0] S512
  slices_S4x512x512_S4x64x64_0_0_0 : S4x512x512.Slices ![0, 0, 0] S4x64x64
  slices_S4x512x512_S4x64x64_0_64_64 : S4x512x512.Slices ![0, 64, 64] S4x64x64
  slices_S4x512x512_S4x64x64_0_128_128 : S4x512x512.Slices ![0, 128, 128] S4x64x64
  slices_S4x512x512_S4x64x64_0_192_192 : S4x512x512.Slices ![0, 192, 192] S4x64x64
  slices_S4x512x512_S4x64x64_0_256_256 : S4x512x512.Slices ![0, 256, 256] S4x64x64
  slices_S4x512x512_S4x64x64_0_320_320 : S4x512x512.Slices ![0, 320, 320] S4x64x64
  slices_S4x512x512_S4x64x64_0_384_384 : S4x512x512.Slices ![0, 384, 384] S4x64x64
  slices_S4x512x512_S4x64x64_0_448_448 : S4x512x512.Slices ![0, 448, 448] S4x64x64
  bcast_S4x64x64_S4x1x64x64_0_2_3 : S4x64x64.BroadcastsInDim S4x1x64x64 (![0, 2, 3] : Fin 3 → Fin S4x1x64x64.rank)
  concatenates_S4x1x64x64_S4x1x64x64_S4x1x64x64_S4x1x64x64_S4x1x64x64_S4x1x64x64_S4x1x64x64_S4x1x64x64_S4x8x64x64_d1 : Shape.Concatenates [S4x1x64x64, S4x1x64x64, S4x1x64x64, S4x1x64x64, S4x1x64x64, S4x1x64x64, S4x1x64x64, S4x1x64x64] S4x8x64x64 1
  shapeCasts_S4x1x512_S4x8x64 : S4x1x512.ShapeCasts S4x8x64
  inb_S1x8x64_S1x1x64_0_0_0 : ∀ a, (![0, 0, 0] : Fin 3 → Nat) a + S1x1x64.size a ≤ S1x8x64.size a
  h_S1x1x64 : 0 < S1x1x64.numel
  shapeCasts_S1x1x64_S64 : S1x1x64.ShapeCasts S64
  shapeCasts_S64_S1x64 : S64.ShapeCasts S1x64
  broadcasts_S1x64_S1024x64 : S1x64.Broadcasts S1024x64
  inb_S1x8x64x64_S1x1x64x64_0_0_0_0 : ∀ a, (![0, 0, 0, 0] : Fin 4 → Nat) a + S1x1x64x64.size a ≤ S1x8x64x64.size a
  h_S1x1x64x64 : 0 < S1x1x64x64.numel
  shapeCasts_S1x1x64x64_S64x64 : S1x1x64x64.ShapeCasts S64x64
  inb_S1x8x64_S1x1x64_0_1_0 : ∀ a, (![0, 1, 0] : Fin 3 → Nat) a + S1x1x64.size a ≤ S1x8x64.size a
  inb_S1x8x64x64_S1x1x64x64_0_1_0_0 : ∀ a, (![0, 1, 0, 0] : Fin 4 → Nat) a + S1x1x64x64.size a ≤ S1x8x64x64.size a
  inb_S1x8x64_S1x1x64_0_2_0 : ∀ a, (![0, 2, 0] : Fin 3 → Nat) a + S1x1x64.size a ≤ S1x8x64.size a
  inb_S1x8x64x64_S1x1x64x64_0_2_0_0 : ∀ a, (![0, 2, 0, 0] : Fin 4 → Nat) a + S1x1x64x64.size a ≤ S1x8x64x64.size a
  inb_S1x8x64_S1x1x64_0_3_0 : ∀ a, (![0, 3, 0] : Fin 3 → Nat) a + S1x1x64.size a ≤ S1x8x64.size a
  inb_S1x8x64x64_S1x1x64x64_0_3_0_0 : ∀ a, (![0, 3, 0, 0] : Fin 4 → Nat) a + S1x1x64x64.size a ≤ S1x8x64x64.size a
  inb_S1x8x64_S1x1x64_0_4_0 : ∀ a, (![0, 4, 0] : Fin 3 → Nat) a + S1x1x64.size a ≤ S1x8x64.size a
  inb_S1x8x64x64_S1x1x64x64_0_4_0_0 : ∀ a, (![0, 4, 0, 0] : Fin 4 → Nat) a + S1x1x64x64.size a ≤ S1x8x64x64.size a
  inb_S1x8x64_S1x1x64_0_5_0 : ∀ a, (![0, 5, 0] : Fin 3 → Nat) a + S1x1x64.size a ≤ S1x8x64.size a
  inb_S1x8x64x64_S1x1x64x64_0_5_0_0 : ∀ a, (![0, 5, 0, 0] : Fin 4 → Nat) a + S1x1x64x64.size a ≤ S1x8x64x64.size a
  inb_S1x8x64_S1x1x64_0_6_0 : ∀ a, (![0, 6, 0] : Fin 3 → Nat) a + S1x1x64.size a ≤ S1x8x64.size a
  inb_S1x8x64x64_S1x1x64x64_0_6_0_0 : ∀ a, (![0, 6, 0, 0] : Fin 4 → Nat) a + S1x1x64x64.size a ≤ S1x8x64x64.size a
  inb_S1x8x64_S1x1x64_0_7_0 : ∀ a, (![0, 7, 0] : Fin 3 → Nat) a + S1x1x64.size a ≤ S1x8x64.size a
  inb_S1x8x64x64_S1x1x64x64_0_7_0_0 : ∀ a, (![0, 7, 0, 0] : Fin 4 → Nat) a + S1x1x64x64.size a ≤ S1x8x64x64.size a
  shapeCasts_S1024x512_S1x1024x512 : S1024x512.ShapeCasts S1x1024x512
  dot_S1024x512_S512x512_S1024x512_1_0_0_1_n_n_wf : DotDims.WF S1024x512 S512x512 S1024x512 [1] [0] [0] [1] [] []
  dot_S512x1024_S1024x512_S512x512_1_0_0_1_n_n_wf : DotDims.WF S512x1024 S1024x512 S512x512 [1] [0] [0] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S4x8192x512.size a
  hwx0_0 : ∀ i : grid0.Coords, EltTy.bits .f32 = 32 ∨ (Rect.block (s := S4x8192x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S4x8192x512.size a
  hwx0_1 : ∀ i : grid0.Coords, EltTy.bits .f32 = 32 ∨ (Rect.block (s := S4x8192x512) S1x1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x512.size a ≤ S4x512x512.size a
  hwx0_10 : ∀ i : grid0.Coords, EltTy.bits .f32 = 32 ∨ (Rect.block (s := S4x512x512) S1x512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x512.size a ≤ S4x1x512.size a
  hwx0_11 : ∀ i : grid0.Coords, EltTy.bits .f32 = 32 ∨ (Rect.block (s := S4x1x512) S1x1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x512x512.size a ≤ S4x512x512.size a
  hwx0_12 : ∀ i : grid0.Coords, EltTy.bits .f32 = 32 ∨ (Rect.block (s := S4x512x512) S1x512x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1x512.size a ≤ S4x1x512.size a
  hwx0_13 : ∀ i : grid0.Coords, EltTy.bits .f32 = 32 ∨ (Rect.block (s := S4x1x512) S1x1x512.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S4x8192x512.size a
  hwx1_0 : ∀ i : grid1.Coords, EltTy.bits .f32 = 32 ∨ (Rect.block (s := S4x8192x512) S1x1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x64x64.size a ≤ S4x8x64x64.size a
  hwx1_3 : ∀ i : grid1.Coords, EltTy.bits .f32 = 32 ∨ (Rect.block (s := S4x8x64x64) S1x8x64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x8x64.size a ≤ S4x8x64.size a
  hwx1_4 : ∀ i : grid1.Coords, EltTy.bits .f32 = 32 ∨ (Rect.block (s := S4x8x64) S1x8x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x8x64x64.size a ≤ S4x8x64x64.size a
  hwx1_5 : ∀ i : grid1.Coords, EltTy.bits .f32 = 32 ∨ (Rect.block (s := S4x8x64x64) S1x8x64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x8x64.size a ≤ S4x8x64.size a
  hwx1_6 : ∀ i : grid1.Coords, EltTy.bits .f32 = 32 ∨ (Rect.block (s := S4x8x64) S1x8x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S512x512.size a
  hwx1_7 : ∀ i : grid1.Coords, EltTy.bits .bf16 = 32 ∨ (Rect.block (s := S512x512) S512x512.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512.size a ≤ S512.size a
  hwx1_8 : ∀ i : grid1.Coords, EltTy.bits .f32 = 32 ∨ (Rect.block (s := S512) S512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1024x512.size a ≤ S4x8192x512.size a
  hwx1_9 : ∀ i : grid1.Coords, EltTy.bits .f32 = 32 ∨ (Rect.block (s := S4x8192x512) S1x1024x512.size (cc1_transform_9 i) (hinb1_9 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg1) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12_0) S1x512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v12_1) S1x1x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v12_2) S1x512x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v12_3) S1x1x512.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x8x64x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x8x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x8x64x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v48) S1x8x64.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v11) S512x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v49) S1x1024x512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S4x8192x512 : Shape := ⟨3, ![4, 8192, 512]⟩
abbrev S512x512 : Shape := ⟨2, ![512, 512]⟩
abbrev S512 : Shape := ⟨1, ![512]⟩
abbrev S1x1x512 : Shape := ⟨3, ![1, 1, 512]⟩
abbrev S4x8192x8x64 : Shape := ⟨4, ![4, 8192, 8, 64]⟩
abbrev S4x8x8192x64 : Shape := ⟨4, ![4, 8, 8192, 64]⟩
abbrev S_ : Shape := ⟨0, ![]⟩
abbrev S4x8x8192 : Shape := ⟨3, ![4, 8, 8192]⟩
abbrev S4x8x8192x1 : Shape := ⟨4, ![4, 8, 8192, 1]⟩
abbrev S4x8x64 : Shape := ⟨3, ![4, 8, 64]⟩
abbrev S4x8x1x64 : Shape := ⟨4, ![4, 8, 1, 64]⟩
abbrev S4x8x64x64 : Shape := ⟨4, ![4, 8, 64, 64]⟩

abbrev nBuf : Space → Nat
  | .hbm => 130
  | .vmem => 0
  | .smem => 0
  | _ => 0

abbrev hbmTy0_0 (i : Nat) : BufTy := match i % 128 with
  | 0 => ⟨S4x8192x512, .f32⟩
  | 1 => ⟨S4x8192x512, .f32⟩
  | 2 => ⟨S4x8192x512, .f32⟩
  | 3 => ⟨S512x512, .f32⟩
  | 4 => ⟨S512, .f32⟩
  | 5 => ⟨S512x512, .f32⟩
  | 6 => ⟨S512, .f32⟩
  | 7 => ⟨S512x512, .f32⟩
  | 8 => ⟨S512, .f32⟩
  | 9 => ⟨S512x512, .f32⟩
  | 10 => ⟨S512, .f32⟩
  | 11 => ⟨S512x512, .f32⟩
  | 12 => ⟨S512, .f32⟩
  | 13 => ⟨S512x512, .f32⟩
  | 14 => ⟨S512, .f32⟩
  | 15 => ⟨S4x8192x512, .f32⟩
  | 16 => ⟨S1x1x512, .f32⟩
  | 17 => ⟨S4x8192x512, .f32⟩
  | 18 => ⟨S4x8192x512, .f32⟩
  | 19 => ⟨S4x8192x8x64, .f32⟩
  | 20 => ⟨S4x8x8192x64, .f32⟩
  | 21 => ⟨S_, .f32⟩
  | 22 => ⟨S4x8x8192, .f32⟩
  | 23 => ⟨S_, .f32⟩
  | 24 => ⟨S4x8x8192, .f32⟩
  | 25 => ⟨S4x8x8192, .f32⟩
  | 26 => ⟨S4x8x8192x1, .f32⟩
  | 27 => ⟨S4x8x8192x64, .f32⟩
  | 28 => ⟨S4x8x8192x64, .f32⟩
  | 29 => ⟨S4x8x8192x64, .f32⟩
  | 30 => ⟨S_, .f32⟩
  | 31 => ⟨S4x8x8192, .f32⟩
  | 32 => ⟨S4x8x8192x1, .f32⟩
  | 33 => ⟨S4x8x8192x64, .f32⟩
  | 34 => ⟨S4x8x8192x64, .f32⟩
  | 35 => ⟨S4x8192x512, .f32⟩
  | 36 => ⟨S1x1x512, .f32⟩
  | 37 => ⟨S4x8192x512, .f32⟩
  | 38 => ⟨S4x8192x512, .f32⟩
  | 39 => ⟨S4x8192x8x64, .f32⟩
  | 40 => ⟨S4x8x8192x64, .f32⟩
  | 41 => ⟨S_, .f32⟩
  | 42 => ⟨S4x8x8192, .f32⟩
  | 43 => ⟨S_, .f32⟩
  | 44 => ⟨S4x8x8192, .f32⟩
  | 45 => ⟨S4x8x8192, .f32⟩
  | 46 => ⟨S4x8x8192x1, .f32⟩
  | 47 => ⟨S4x8x8192x64, .f32⟩
  | 48 => ⟨S4x8x8192x64, .f32⟩
  | 49 => ⟨S4x8x8192x64, .f32⟩
  | 50 => ⟨S_, .f32⟩
  | 51 => ⟨S4x8x8192, .f32⟩
  | 52 => ⟨S4x8x8192x1, .f32⟩
  | 53 => ⟨S4x8x8192x64, .f32⟩
  | 54 => ⟨S4x8x8192x64, .f32⟩
  | 55 => ⟨S4x8192x512, .f32⟩
  | 56 => ⟨S1x1x512, .f32⟩
  | 57 => ⟨S4x8192x512, .f32⟩
  | 58 => ⟨S4x8192x512, .f32⟩
  | 59 => ⟨S4x8192x8x64, .f32⟩
  | 60 => ⟨S4x8x8192x64, .f32⟩
  | 61 => ⟨S_, .f32⟩
  | 62 => ⟨S4x8x64, .f32⟩
  | 63 => ⟨S4x8x1x64, .f32⟩
  | 64 => ⟨S4x8x8192x64, .f32⟩
  | 65 => ⟨S4x8x8192x64, .f32⟩
  | 66 => ⟨S_, .f32⟩
  | 67 => ⟨S4x8x8192, .f32⟩
  | 68 => ⟨S4x8x8192x1, .f32⟩
  | 69 => ⟨S_, .f32⟩
  | 70 => ⟨S4x8x8192x1, .f32⟩
  | 71 => ⟨S4x8x8192x1, .f32⟩
  | 72 => ⟨S4x8x64x64, .f32⟩
  | 73 => ⟨S4x8x8192x64, .f32⟩
  | 74 => ⟨S4x8x8192x64, .f32⟩
  | 75 => ⟨S4x8x8192x64, .f32⟩
  | 76 => ⟨S4x8192x512, .f32⟩
  | 77 => ⟨S1x1x512, .f32⟩
  | 78 => ⟨S4x8192x512, .f32⟩
  | 79 => ⟨S4x8192x512, .f32⟩
  | 80 => ⟨S4x8192x8x64, .f32⟩
  | 81 => ⟨S4x8x8192x64, .f32⟩
  | 82 => ⟨S_, .f32⟩
  | 83 => ⟨S4x8x8192, .f32⟩
  | 84 => ⟨S_, .f32⟩
  | 85 => ⟨S4x8x8192, .f32⟩
  | 86 => ⟨S4x8x8192, .f32⟩
  | 87 => ⟨S4x8x8192x1, .f32⟩
  | 88 => ⟨S4x8x8192x64, .f32⟩
  | 89 => ⟨S4x8x8192x64, .f32⟩
  | 90 => ⟨S4x8x8192x64, .f32⟩
  | 91 => ⟨S_, .f32⟩
  | 92 => ⟨S4x8x8192, .f32⟩
  | 93 => ⟨S4x8x8192x1, .f32⟩
  | 94 => ⟨S4x8x8192x64, .f32⟩
  | 95 => ⟨S4x8x8192x64, .f32⟩
  | 96 => ⟨S4x8192x512, .f32⟩
  | 97 => ⟨S1x1x512, .f32⟩
  | 98 => ⟨S4x8192x512, .f32⟩
  | 99 => ⟨S4x8192x512, .f32⟩
  | 100 => ⟨S4x8192x8x64, .f32⟩
  | 101 => ⟨S4x8x8192x64, .f32⟩
  | 102 => ⟨S_, .f32⟩
  | 103 => ⟨S4x8x64, .f32⟩
  | 104 => ⟨S4x8x1x64, .f32⟩
  | 105 => ⟨S4x8x8192x64, .f32⟩
  | 106 => ⟨S4x8x8192x64, .f32⟩
  | 107 => ⟨S_, .f32⟩
  | 108 => ⟨S4x8x8192, .f32⟩
  | 109 => ⟨S4x8x8192x1, .f32⟩
  | 110 => ⟨S_, .f32⟩
  | 111 => ⟨S4x8x8192x1, .f32⟩
  | 112 => ⟨S4x8x8192x1, .f32⟩
  | 113 => ⟨S4x8x64x64, .f32⟩
  | 114 => ⟨S4x8x8192x64, .f32⟩
  | 115 => ⟨S4x8x8192x64, .f32⟩
  | 116 => ⟨S4x8x8192x64, .f32⟩
  | 117 => ⟨S4x8x8192x64, .f32⟩
  | 118 => ⟨S_, .f32⟩
  | 119 => ⟨S4x8x8192x64, .f32⟩
  | 120 => ⟨S4x8x8192x64, .f32⟩
  | 121 => ⟨S4x8192x8x64, .f32⟩
  | 122 => ⟨S4x8192x512, .f32⟩
  | 123 => ⟨S4x8192x8x64, .f32⟩
  | 124 => ⟨S4x8192x512, .f32⟩
  | 125 => ⟨S4x8192x512, .f32⟩
  | 126 => ⟨S4x8192x512, .f32⟩
  | 127 => ⟨S1x1x512, .f32⟩
  | _ => ⟨S4x8192x512, .f32⟩

abbrev hbmTy0_1 (i : Nat) : BufTy := match i % 128 with
  | 0 => ⟨S4x8192x512, .f32⟩
  | 1 => ⟨S4x8192x512, .f32⟩
  | _ => ⟨S4x8192x512, .f32⟩

abbrev hbmTy (i : Nat) : BufTy := match i / 128 with
  | 0 => hbmTy0_0 i
  | 1 => hbmTy0_1 i
  | _ => ⟨S4x8192x512, .f32⟩

abbrev bufTy : (tb : Table) → Fin (tcTables nBuf tb) → BufTy
  | .hbm, ⟨i, _⟩ => hbmTy i
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_8 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_10 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_11 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_12 : Ref sig .tc := ⟨.hbm, 107, rfl⟩
abbrev main_v79 : Ref sig .tc := ⟨.hbm, 108, rfl⟩
abbrev main_v80 : Ref sig .tc := ⟨.hbm, 109, rfl⟩
abbrev main_cst_13 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_14 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x8192x512_0_1_2 : S1x1x512.BroadcastsInDim S4x8192x512 (![0, 1, 2] : Fin 3 → Fin S4x8192x512.rank)
  shapeCasts_S4x8192x512_S4x8192x8x64 : S4x8192x512.ShapeCasts S4x8192x8x64
  transposes_S4x8192x8x64_S4x8x8192x64_0_2_1_3 : S4x8192x8x64.Transposes [0, 2, 1, 3] S4x8x8192x64
  reducesTo_S4x8x8192x64_S4x8x8192_d3 : S4x8x8192x64.ReducesTo [3] S4x8x8192
  h_S_ : 0 < S_.numel
  bcast_S_S4x8x8192 : S_.BroadcastsInDim S4x8x8192 (![] : Fin 0 → Fin S4x8x8192.rank)
  bcast_S4x8x8192_S4x8x8192x1_0_1_2 : S4x8x8192.BroadcastsInDim S4x8x8192x1 (![0, 1, 2] : Fin 3 → Fin S4x8x8192x1.rank)
  bcast_S4x8x8192x1_S4x8x8192x64_0_1_2_3 : S4x8x8192x1.BroadcastsInDim S4x8x8192x64 (![0, 1, 2, 3] : Fin 4 → Fin S4x8x8192x64.rank)
  reducesTo_S4x8x8192x64_S4x8x64_d2 : S4x8x8192x64.ReducesTo [2] S4x8x64
  bcast_S4x8x64_S4x8x1x64_0_1_3 : S4x8x64.BroadcastsInDim S4x8x1x64 (![0, 1, 3] : Fin 3 → Fin S4x8x1x64.rank)
  bcast_S4x8x1x64_S4x8x8192x64_0_1_2_3 : S4x8x1x64.BroadcastsInDim S4x8x8192x64 (![0, 1, 2, 3] : Fin 4 → Fin S4x8x8192x64.rank)
  bcast_S_S4x8x8192x1 : S_.BroadcastsInDim S4x8x8192x1 (![] : Fin 0 → Fin S4x8x8192x1.rank)
  bcast_S_S4x8x8192x64 : S_.BroadcastsInDim S4x8x8192x64 (![] : Fin 0 → Fin S4x8x8192x64.rank)
  transposes_S4x8x8192x64_S4x8192x8x64_0_2_1_3 : S4x8x8192x64.Transposes [0, 2, 1, 3] S4x8192x8x64
  shapeCasts_S4x8192x8x64_S4x8192x512 : S4x8192x8x64.ShapeCasts S4x8192x512
  dot_S4x8192x512_S512x512_S4x8192x512_2_1_01_0_n_n_wf : DotDims.WF S4x8192x512 S512x512 S4x8192x512 [2] [1] [0, 1] [0] [] []
  dot_S4x8x8192x64_S4x8x8192x64_S4x8x64x64_2_2_3_3_01_01_wf : DotDims.WF S4x8x8192x64 S4x8x8192x64 S4x8x64x64 [2] [2] [3] [3] [0, 1] [0, 1]
  dot_S4x8x8192x64_S4x8x64x64_S4x8x8192x64_3_2_2_3_01_01_wf : DotDims.WF S4x8x8192x64 S4x8x64x64 S4x8x8192x64 [3] [2] [2] [3] [0, 1] [0, 1]

variable [Facts₀]

def dot_S4x8192x512_S512x512_S4x8192x512_2_1_01_0_n_n : DotDims S4x8192x512 S512x512 S4x8192x512 where
  lhsContracting := [2]
  rhsContracting := [1]
  lhsNonContracting := [0, 1]
  rhsNonContracting := [0]
  lhsBatch := []
  rhsBatch := []
  wf := dot_S4x8192x512_S512x512_S4x8192x512_2_1_01_0_n_n_wf
def dot_S4x8x8192x64_S4x8x8192x64_S4x8x64x64_2_2_3_3_01_01 : DotDims S4x8x8192x64 S4x8x8192x64 S4x8x64x64 where
  lhsContracting := [2]
  rhsContracting := [2]
  lhsNonContracting := [3]
  rhsNonContracting := [3]
  lhsBatch := [0, 1]
  rhsBatch := [0, 1]
  wf := dot_S4x8x8192x64_S4x8x8192x64_S4x8x64x64_2_2_3_3_01_01_wf
def dot_S4x8x8192x64_S4x8x64x64_S4x8x8192x64_3_2_2_3_01_01 : DotDims S4x8x8192x64 S4x8x64x64 S4x8x8192x64 where
  lhsContracting := [3]
  rhsContracting := [2]
  lhsNonContracting := [2]
  rhsNonContracting := [3]
  lhsBatch := [0, 1]
  rhsBatch := [0, 1]
  wf := dot_S4x8x8192x64_S4x8x64x64_S4x8x8192x64_3_2_2_3_01_01_wf

class Facts : Prop extends Facts₀ where

variable [Facts]
-- ==== Proof.KI.R0Runs.lean ====
import proofs.«425839_j19628000543020_3_alg».proof.Proof.Gen.KernelIdeal.Launch
import proofs.«425839_j19628000543020_3_alg».proof.Proof.Gen.KernelIdeal.Skeleton
import proofs.«425839_j19628000543020_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 8 = 0 :=
  (by decide +kernel : ∀ t : Fin grid0.N, cond0_0 (grid0.coords t) ↔ t.val % 8 = 0)

abbrev VO0_10 : View sig .tc .vmem S1x512x512 .f32 := (Memref.whole cc0_stg10_0 : Memref sig .tc .vmem S1x512x512 .f32).view

abbrev VO0_11 : View sig .tc .vmem S1x1x512 .f32 := (Memref.whole cc0_stg11_0 : Memref sig .tc .vmem S1x1x512 .f32).view

abbrev VO0_12 : View sig .tc .vmem S1x512x512 .f32 := (Memref.whole cc0_stg12_0 : Memref sig .tc .vmem S1x512x512 .f32).view

abbrev VO0_13 : View sig .tc .vmem S1x1x512 .f32 := (Memref.whole cc0_stg13_0 : Memref sig .tc .vmem S1x1x512 .f32).view
abbrev ms0_0 (t : Fin cfg0.N) : Memref sig .tc .vmem S1x1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x512 .f32 := win0_13.stage (cfg0.slots t 13)
abbrev hs0_13 (t : Fin cfg0.N) : (ms0_13 t).IsWhole := hstage0_13 ((cfg0.slots t 13).cast nbuf0_13)

end Cert.KernelIdeal.Hand

end
-- ==== Proof.KI.R0RunA.lean ====
import proofs.«425839_j19628000543020_3_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S512x512 .bf16) (harg10 : arg10.IsWhole) (arg11 : Memref sig .tc .vmem S512 .f32) (harg11 : arg11.IsWhole) (arg12 : Memref sig .tc .vmem S1x512x512 .f32) (harg12 : arg12.IsWhole) (arg13 : Memref sig .tc .vmem S1x1x512 .f32) (harg13 : arg13.IsWhole) (arg14 : Memref sig .tc .vmem S1x512x512 .f32) (harg14 : arg14.IsWhole) (arg15 : Memref sig .tc .vmem S1x1x512 .f32) (harg15 : arg15.IsWhole) (hc0 : cond0_0 i)
    (x0 : Vec F S1x1024x512 .f32) (x1 : Vec F S1x1024x512 .f32) (x2 : Vec F S512x512 .bf16) (x3 : Vec F S512 .f32) (x4 : Vec F S512x512 .bf16) (x5 : Vec F S512 .f32) (x6 : Vec F S512x512 .bf16) (x7 : Vec F S512 .f32) (x8 : Vec F S512x512 .bf16) (x9 : Vec F S512 .f32) :
    { L : List (View.Piece (Elt F) S1x512x512 .f32) × List (View.Piece (Elt F) S1x1x512 .f32) × List (View.Piece (Elt F) S1x512x512 .f32) × List (View.Piece (Elt F) S1x1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L.1) ∗ (∃ f, arg13.view.loc (c : Thread nD τ) ↦[arg13.view.set]{fullShare} arg13.view.writes (Elt F) f L.2.1) ∗ (∃ f, arg14.view.loc (c : Thread nD τ) ↦[arg14.view.set]{fullShare} arg14.view.writes (Elt F) f L.2.2.1) ∗ (∃ f, arg15.view.loc (c : Thread nD τ) ↦[arg15.view.set]{fullShare} arg15.view.writes (Elt F) f L.2.2.2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨⟨?_, ?_, ?_, ?_⟩, fun E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    iexists _; iexact H13

end Cert.KernelIdeal.Hand

end
-- ==== Proof.KI.R0RunB.lean ====
import proofs.«425839_j19628000543020_3_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S512x512 .bf16) (harg10 : arg10.IsWhole) (arg11 : Memref sig .tc .vmem S512 .f32) (harg11 : arg11.IsWhole) (arg12 : Memref sig .tc .vmem S1x512x512 .f32) (harg12 : arg12.IsWhole) (arg13 : Memref sig .tc .vmem S1x1x512 .f32) (harg13 : arg13.IsWhole) (arg14 : Memref sig .tc .vmem S1x512x512 .f32) (harg14 : arg14.IsWhole) (arg15 : Memref sig .tc .vmem S1x1x512 .f32) (harg15 : arg15.IsWhole) (hc0 : ¬cond0_0 i)
    (x0 : Vec F S1x1024x512 .f32) (x1 : Vec F S1x1024x512 .f32) (x2 : Vec F S512x512 .bf16) (x3 : Vec F S512 .f32) (x4 : Vec F S512x512 .bf16) (x5 : Vec F S512 .f32) (x6 : Vec F S512x512 .bf16) (x7 : Vec F S512 .f32) (x8 : Vec F S512x512 .bf16) (x9 : Vec F S512 .f32) (xo10 : Vec F S1x512x512 .f32) (xo11 : Vec F S1x1x512 .f32) (xo12 : Vec F S1x512x512 .f32) (xo13 : Vec F S1x1x512 .f32) :
    { L : List (View.Piece (Elt F) S1x512x512 .f32) × List (View.Piece (Elt F) S1x1x512 .f32) × List (View.Piece (Elt F) S1x512x512 .f32) × List (View.Piece (Elt F) S1x1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xo10 ∗ owns (c : Thread nD τ) arg13 fullShare xo11 ∗ owns (c : Thread nD τ) arg14 fullShare xo12 ∗ owns (c : Thread nD τ) arg15 fullShare xo13
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L.1) ∗ (∃ f, arg13.view.loc (c : Thread nD τ) ↦[arg13.view.set]{fullShare} arg13.view.writes (Elt F) f L.2.1) ∗ (∃ f, arg14.view.loc (c : Thread nD τ) ↦[arg14.view.set]{fullShare} arg14.view.writes (Elt F) f L.2.2.1) ∗ (∃ f, arg15.view.loc (c : Thread nD τ) ↦[arg15.view.set]{fullShare} arg15.view.writes (Elt F) f L.2.2.2)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨⟨?_, ?_, ?_, ?_⟩, fun E K => ?run⟩
  case run =>
    simp only [cc0__pass1_kernel_eq_skeleton]; unfold cc0__pass1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexists _; iexact H12
    iexists _; iexact H13

end Cert.KernelIdeal.Hand

end
-- ==== Proof.KI.R0.lean ====
import proofs.«425839_j19628000543020_3_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four accumulated blocks: a key–value matrix and a key sum for each of the two functions. -/
abbrev Acc0 (F : FTy → Type) [FloatOps F] : Type := Vec F S1x512x512 .f32 × Vec F S1x1x512 .f32 × Vec F S1x512x512 .f32 × Vec F S1x1x512 .f32

/-- Each of the four store lists covers its block. -/
def Covers0 (L : List (View.Piece (Elt F) S1x512x512 .f32) × List (View.Piece (Elt F) S1x1x512 .f32) × List (View.Piece (Elt F) S1x512x512 .f32) × List (View.Piece (Elt F) S1x1x512 .f32)) : Prop :=
  (∀ y, ∃ pc ∈ L.1, y ∈ pc.1.set) ∧ (∀ y, ∃ pc ∈ L.2.1, y ∈ pc.1.set) ∧ (∀ y, ∃ pc ∈ L.2.2.1, y ∈ pc.1.set) ∧ ∀ y, ∃ pc ∈ L.2.2.2, y ∈ pc.1.set

/-- The four blocks once the stores `L` are applied. -/
def outs0 (L : List (View.Piece (Elt F) S1x512x512 .f32) × List (View.Piece (Elt F) S1x1x512 .f32) × List (View.Piece (Elt F) S1x512x512 .f32) × List (View.Piece (Elt F) S1x1x512 .f32)) : Acc0 F :=
  (VO0_10.read (Elt F) (VO0_10.writes (Elt F) VO0_10.junk L.1), VO0_11.read (Elt F) (VO0_11.writes (Elt F) VO0_11.junk L.2.1),
   VO0_12.read (Elt F) (VO0_12.writes (Elt F) VO0_12.junk L.2.2.1), VO0_13.read (Elt F) (VO0_13.writes (Elt F) VO0_13.junk L.2.2.2))

section
variable (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S512x512 .bf16) (harg10 : arg10.IsWhole) (arg11 : Memref sig .tc .vmem S512 .f32) (harg11 : arg11.IsWhole) (arg12 : Memref sig .tc .vmem S1x512x512 .f32) (harg12 : arg12.IsWhole) (arg13 : Memref sig .tc .vmem S1x1x512 .f32) (harg13 : arg13.IsWhole) (arg14 : Memref sig .tc .vmem S1x512x512 .f32) (harg14 : arg14.IsWhole) (arg15 : Memref sig .tc .vmem S1x1x512 .f32) (harg15 : arg15.IsWhole)

theorem cover0_A (hc0 : cond0_0 i) (x0 : Vec F S1x1024x512 .f32) (x1 : Vec F S1x1024x512 .f32) (x2 : Vec F S512x512 .bf16) (x3 : Vec F S512 .f32) (x4 : Vec F S512x512 .bf16) (x5 : Vec F S512 .f32) (x6 : Vec F S512x512 .bf16) (x7 : Vec F S512 .f32) (x8 : Vec F S512x512 .bf16) (x9 : Vec F S512 .f32) : Covers0 (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).1 :=
  ⟨View.cover_of_tiledL _ S1x512x512.size (by sl_kernel_rfl), View.cover_of_tiledL _ S1x1x512.size (by sl_kernel_rfl),
    View.cover_of_tiledL _ S1x512x512.size (by sl_kernel_rfl), View.cover_of_tiledL _ S1x1x512.size (by sl_kernel_rfl)⟩

theorem cover0_B (hc0 : ¬cond0_0 i) (x0 : Vec F S1x1024x512 .f32) (x1 : Vec F S1x1024x512 .f32) (x2 : Vec F S512x512 .bf16) (x3 : Vec F S512 .f32) (x4 : Vec F S512x512 .bf16) (x5 : Vec F S512 .f32) (x6 : Vec F S512x512 .bf16) (x7 : Vec F S512 .f32) (x8 : Vec F S512x512 .bf16) (x9 : Vec F S512 .f32) (xo10 : Vec F S1x512x512 .f32) (xo11 : Vec F S1x1x512 .f32) (xo12 : Vec F S1x512x512 .f32) (xo13 : Vec F S1x1x512 .f32) : Covers0 (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo10 xo11 xo12 xo13).1 :=
  ⟨View.cover_of_tiledL _ S1x512x512.size (by sl_kernel_rfl), View.cover_of_tiledL _ S1x1x512.size (by sl_kernel_rfl),
    View.cover_of_tiledL _ S1x512x512.size (by sl_kernel_rfl), View.cover_of_tiledL _ S1x1x512.size (by sl_kernel_rfl)⟩

end

section
variable (V : (c : Dev nD) → (b : Ref sig .tc) → Buf (Elt F) ((c : Thread nD τ).loc b))

/-- The four blocks after a row's first tile: zero plus the tile's contribution. -/
def ptA (c : Dev nD) (t : Fin cfg0.N) (h0 : t.val % 8 = 0) : Acc0 F :=
  outs0 (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).1

/-- The four blocks after a later tile: what they held plus the tile's contribution. -/
def ptB (c : Dev nD) (t : Fin cfg0.N) (h0 : ¬t.val % 8 = 0) (o : Acc0 F) : Acc0 F :=
  outs0 (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) o.1 o.2.1 o.2.2.1 o.2.2.2).1

/-- The four blocks after the n-th grid point. -/
def outsAt0 (c : Dev nD) : (n : ℕ) → n < cfg0.N → Acc0 F
  | 0, hn => ptA V c ⟨0, hn⟩ (Nat.zero_mod _)
  | n + 1, hn =>
    if h0 : (n + 1) % 8 = 0 then ptA V c ⟨n + 1, hn⟩ h0
    else ptB V c ⟨n + 1, hn⟩ h0 (outsAt0 c n (Nat.lt_of_succ_lt hn))

theorem outsAt0_A (c : Dev nD) (t : Fin cfg0.N) (h0 : t.val % 8 = 0) : outsAt0 V c t.val t.isLt = ptA V c t h0 := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = ptB V c t h0 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (outsAt0 V c t.val t.isLt).1
    | ⟨11, _⟩ => (outsAt0 V c t.val t.isLt).2.1
    | ⟨12, _⟩ => (outsAt0 V c t.val t.isLt).2.2.1
    | ⟨13, _⟩ => (outsAt0 V c t.val t.isLt).2.2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (outsAt0 V c t.val t.isLt).1 := by dsimp only [dat0]
theorem after0_11 (c : Dev nD) (t : Fin cfg0.N) : (dat0 V c).after 11 t = (outsAt0 V c t.val t.isLt).2.1 := by dsimp only [dat0]
theorem after0_12 (c : Dev nD) (t : Fin cfg0.N) : (dat0 V c).after 12 t = (outsAt0 V c t.val t.isLt).2.2.1 := by dsimp only [dat0]
theorem after0_13 (c : Dev nD) (t : Fin cfg0.N) : (dat0 V c).after 13 t = (outsAt0 V c t.val t.isLt).2.2.2 := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d
theorem before0_6 (c : Dev nD) (t : Fin cfg0.N) (d) : (dat0 V c).before 6 t d = iblk0 V c 6 t :=
  (dat0 V c).before_in_eq_fetched 6 rfl (fun _ => rfl) (fun _ _ _ => rfl) (fun _ => rfl) t d
theorem before0_7 (c : Dev nD) (t : Fin cfg0.N) (d) : (dat0 V c).before 7 t d = iblk0 V c 7 t :=
  (dat0 V c).before_in_eq_fetched 7 rfl (fun _ => rfl) (fun _ _ _ => rfl) (fun _ => rfl) t d
theorem before0_8 (c : Dev nD) (t : Fin cfg0.N) (d) : (dat0 V c).before 8 t d = iblk0 V c 8 t :=
  (dat0 V c).before_in_eq_fetched 8 rfl (fun _ => rfl) (fun _ _ _ => rfl) (fun _ => rfl) t d
theorem before0_9 (c : Dev nD) (t : Fin cfg0.N) (d) : (dat0 V c).before 9 t d = iblk0 V c 9 t :=
  (dat0 V c).before_in_eq_fetched 9 rfl (fun _ => rfl) (fun _ _ _ => rfl) (fun _ => rfl) t d

theorem before0_10_B (c : Dev nD) (t : Fin cfg0.N) (h0 : ¬t.val % 8 = 0) (d) :
    (dat0 V c).before 10 t d = (outsAt0 V c (t.val - 1) (Nat.lt_of_le_of_lt (Nat.sub_le _ _) t.isLt)).1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dat0]

theorem before0_11_B (c : Dev nD) (t : Fin cfg0.N) (h0 : ¬t.val % 8 = 0) (d) :
    (dat0 V c).before 11 t d = (outsAt0 V c (t.val - 1) (Nat.lt_of_le_of_lt (Nat.sub_le _ _) t.isLt)).2.1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dat0]

theorem before0_12_B (c : Dev nD) (t : Fin cfg0.N) (h0 : ¬t.val % 8 = 0) (d) :
    (dat0 V c).before 12 t d = (outsAt0 V c (t.val - 1) (Nat.lt_of_le_of_lt (Nat.sub_le _ _) t.isLt)).2.2.1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dat0]

theorem before0_13_B (c : Dev nD) (t : Fin cfg0.N) (h0 : ¬t.val % 8 = 0) (d) :
    (dat0 V c).before 13 t d = (outsAt0 V c (t.val - 1) (Nat.lt_of_le_of_lt (Nat.sub_le _ _) t.isLt)).2.2.2 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t))

set_option maxHeartbeats 4000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  have hN : t.val < 32 := lt_of_lt_of_eq t.isLt (show cfg0.N = 32 from N_0)
  by_cases h0 : t.val % 8 = 0
  · rw [outsAt0_A V c t h0]
    dsimp only [ptA, outs0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_A c (grid0.coords t) _ _ _ _ _ _ _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2 Set.univ _)
    iframe H0 H1 H2 H3 H4 H5 H6 H7 H8 H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, ⟨%e10, H10⟩, ⟨%e11, H11⟩, ⟨%e12, H12⟩, ⟨%e13, H13⟩⟩
    iframe HΦ Ho H0 H1 H2 H3 H4 H5 H6 H7 H8 H9
    isplitl [H10]
    · unfold owns; iexists _; isplitr
      swap; · iexact H10
      ipureintro; exact View.read_writes_of_cover _ _ _ _ _ (cover0_A (F := F) c _ _ _ _ _ _ _ _ _ _ _ _ _ _ _ _ _ _ _ _ _ _ _ _ _ _ _ _ _ _ _ _ _ _ _ _ _ _ _ _).1
    isplitl [H11]
    · unfold owns; iexists _; isplitr
      swap; · iexact H11
      ipureintro; exact View.read_writes_of_cover _ _ _ _ _ (cover0_A (F := F) c _ _ _ _ _ _ _ _ _ _ _ _ _ _ _ _ _ _ _ _ _ _ _ _ _ _ _ _ _ _ _ _ _ _ _ _ _ _ _ _).2.1
    isplitl [H12]
    · unfold owns; iexists _; isplitr
      swap; · iexact H12
      ipureintro; exact View.read_writes_of_cover _ _ _ _ _ (cover0_A (F := F) c _ _ _ _ _ _ _ _ _ _ _ _ _ _ _ _ _ _ _ _ _ _ _ _ _ _ _ _ _ _ _ _ _ _ _ _ _ _ _ _).2.2.1
    · unfold owns; iexists _; isplitr
      swap; · iexact H13
      ipureintro; exact View.read_writes_of_cover _ _ _ _ _ (cover0_A (F := F) c _ _ _ _ _ _ _ _ _ _ _ _ _ _ _ _ _ _ _ _ _ _ _ _ _ _ _ _ _ _ _ _ _ _ _ _ _ _ _ _).2.2.2
  · rw [outsAt0_B V c t h0]
    simp only [before0_10_B V c t h0, before0_11_B V c t h0, before0_12_B V c t h0, before0_13_B V c t h0]
    dsimp only [ptB, outs0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_B c (grid0.coords t) _ _ _ _ _ _ _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _ _ _ _).2 Set.univ _)
    iframe H0 H1 H2 H3 H4 H5 H6 H7 H8 H9 H10 H11 H12 H13
    iintro ⟨H0, H1, H2, H3, H4, H5, H6, H7, H8, H9, ⟨%e10, H10⟩, ⟨%e11, H11⟩, ⟨%e12, H12⟩, ⟨%e13, H13⟩⟩
    iframe HΦ Ho H0 H1 H2 H3 H4 H5 H6 H7 H8 H9
    isplitl [H10]
    · unfold owns; iexists _; isplitr
      swap; · iexact H10
      ipureintro; exact View.read_writes_of_cover _ _ _ _ _ (cover0_B (F := F) c _ _ _ _ _ _ _ _ _ _ _ _ _ _ _ _ _ _ _ _ _ _ _ _ _ _ _ _ _ _ _ _ _ _ _ _ _ _ _ _ _ _ _ _).1
    isplitl [H11]
    · unfold owns; iexists _; isplitr
      swap; · iexact H11
      ipureintro; exact View.read_writes_of_cover _ _ _ _ _ (cover0_B (F := F) c _ _ _ _ _ _ _ _ _ _ _ _ _ _ _ _ _ _ _ _ _ _ _ _ _ _ _ _ _ _ _ _ _ _ _ _ _ _ _ _ _ _ _ _).2.1
    isplitl [H12]
    · unfold owns; iexists _; isplitr
      swap; · iexact H12
      ipureintro; exact View.read_writes_of_cover _ _ _ _ _ (cover0_B (F := F) c _ _ _ _ _ _ _ _ _ _ _ _ _ _ _ _ _ _ _ _ _ _ _ _ _ _ _ _ _ _ _ _ _ _ _ _ _ _ _ _ _ _ _ _).2.2.1
    · unfold owns; iexists _; isplitr
      swap; · iexact H13
      ipureintro; exact View.read_writes_of_cover _ _ _ _ _ (cover0_B (F := F) c _ _ _ _ _ _ _ _ _ _ _ _ _ _ _ _ _ _ _ _ _ _ _ _ _ _ _ _ _ _ _ _ _ _ _ _ _ _ _ _ _ _ _ _).2.2.2

theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.R1Run.lean ====
import proofs.«425839_j19628000543020_3_alg».proof.Proof.Gen.KernelIdeal.Launch
import proofs.«425839_j19628000543020_3_alg».proof.Proof.Gen.KernelIdeal.Skeleton
import proofs.«425839_j19628000543020_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end

abbrev VO1_9 : View sig .tc .vmem S1x1024x512 .f32 := (Memref.whole cc1_stg9_0 : Memref sig .tc .vmem S1x1024x512 .f32).view
abbrev ms1_0 (t : Fin cfg1.N) : Memref sig .tc .vmem S1x1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8x64x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x8x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x8x64x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x8x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x512 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x1024x512 .f32 := win1_9.stage (cfg1.slots t 9)
abbrev hs1_9 (t : Fin cfg1.N) : (ms1_9 t).IsWhole := hstage1_9 ((cfg1.slots t 9).cast nbuf1_9)

set_option maxHeartbeats 4000000 in
noncomputable def kernelRun1 (c : Dev nD) (i : grid1.Coords) (arg2 : Memref sig .tc .vmem S1x1024x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S1x8x64x64 .f32) (harg5 : arg5.IsWhole) (arg6 : Memref sig .tc .vmem S1x8x64 .f32) (harg6 : arg6.IsWhole) (arg7 : Memref sig .tc .vmem S1x8x64x64 .f32) (harg7 : arg7.IsWhole) (arg8 : Memref sig .tc .vmem S1x8x64 .f32) (harg8 : arg8.IsWhole) (arg9 : Memref sig .tc .vmem S512x512 .bf16) (harg9 : arg9.IsWhole) (arg10 : Memref sig .tc .vmem S512 .f32) (harg10 : arg10.IsWhole) (arg11 : Memref sig .tc .vmem S1x1024x512 .f32) (harg11 : arg11.IsWhole)
    (x0 : Vec F S1x1024x512 .f32) (x1 : Vec F S512x512 .bf16) (x2 : Vec F S512 .f32) (x3 : Vec F S1x8x64x64 .f32) (x4 : Vec F S1x8x64 .f32) (x5 : Vec F S1x8x64x64 .f32) (x6 : Vec F S1x8x64 .f32) (x7 : Vec F S512x512 .bf16) (x8 : Vec F S512 .f32) :
    { L : List (View.Piece (Elt F) S1x1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L)) -∗ K ⟨⟩))
          ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact H9

end Cert.KernelIdeal.Hand

end
-- ==== Proof.KI.R1.lean ====
import proofs.«425839_j19628000543020_3_alg».proof.Proof.KI.R1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover1_9 (c : Dev nD) (i : grid1.Coords) (arg2 : Memref sig .tc .vmem S1x1024x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S1x8x64x64 .f32) (harg5 : arg5.IsWhole) (arg6 : Memref sig .tc .vmem S1x8x64 .f32) (harg6 : arg6.IsWhole) (arg7 : Memref sig .tc .vmem S1x8x64x64 .f32) (harg7 : arg7.IsWhole) (arg8 : Memref sig .tc .vmem S1x8x64 .f32) (harg8 : arg8.IsWhole) (arg9 : Memref sig .tc .vmem S512x512 .bf16) (harg9 : arg9.IsWhole) (arg10 : Memref sig .tc .vmem S512 .f32) (harg10 : arg10.IsWhole) (arg11 : Memref sig .tc .vmem S1x1024x512 .f32) (harg11 : arg11.IsWhole)
    (x0 : Vec F S1x1024x512 .f32) (x1 : Vec F S512x512 .bf16) (x2 : Vec F S512 .f32) (x3 : Vec F S1x8x64x64 .f32) (x4 : Vec F S1x8x64 .f32) (x5 : Vec F S1x8x64x64 .f32) (x6 : Vec F S1x8x64 .f32) (x7 : Vec F S512x512 .bf16) (x8 : Vec F S512 .f32) (y : S1x1024x512.Idx) :
    ∃ pc ∈ (kernelRun1 c i arg2 harg2 arg3 harg3 arg4 harg4 arg5 harg5 arg6 harg6 arg7 harg7 arg8 harg8 arg9 harg9 arg10 harg10 arg11 harg11 x0 x1 x2 x3 x4 x5 x6 x7 x8).1, y ∈ pc.1.set :=
  View.cover_of_tiledL (kernelRun1 c i arg2 harg2 arg3 harg3 arg4 harg4 arg5 harg5 arg6 harg6 arg7 harg7 arg8 harg8 arg9 harg9 arg10 harg10 arg11 harg11 x0 x1 x2 x3 x4 x5 x6 x7 x8).1 S1x1024x512.size (by sl_kernel_rfl) y

def out1_9 (c : Dev nD) (i : grid1.Coords) (arg2 : Memref sig .tc .vmem S1x1024x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S1x8x64x64 .f32) (harg5 : arg5.IsWhole) (arg6 : Memref sig .tc .vmem S1x8x64 .f32) (harg6 : arg6.IsWhole) (arg7 : Memref sig .tc .vmem S1x8x64x64 .f32) (harg7 : arg7.IsWhole) (arg8 : Memref sig .tc .vmem S1x8x64 .f32) (harg8 : arg8.IsWhole) (arg9 : Memref sig .tc .vmem S512x512 .bf16) (harg9 : arg9.IsWhole) (arg10 : Memref sig .tc .vmem S512 .f32) (harg10 : arg10.IsWhole) (arg11 : Memref sig .tc .vmem S1x1024x512 .f32) (harg11 : arg11.IsWhole)
    (x0 : Vec F S1x1024x512 .f32) (x1 : Vec F S512x512 .bf16) (x2 : Vec F S512 .f32) (x3 : Vec F S1x8x64x64 .f32) (x4 : Vec F S1x8x64 .f32) (x5 : Vec F S1x8x64x64 .f32) (x6 : Vec F S1x8x64 .f32) (x7 : Vec F S512x512 .bf16) (x8 : Vec F S512 .f32) : Vec F S1x1024x512 .f32 :=
  VO1_9.read (Elt F) (VO1_9.writes (Elt F) VO1_9.junk (kernelRun1 c i arg2 harg2 arg3 harg3 arg4 harg4 arg5 harg5 arg6 harg6 arg7 harg7 arg8 harg8 arg9 harg9 arg10 harg10 arg11 harg11 x0 x1 x2 x3 x4 x5 x6 x7 x8).1)

section
variable (V : (c : Dev nD) → (b : Ref sig .tc) → Buf (Elt F) ((c : Thread nD τ).loc b))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d
theorem before1_6 (c : Dev nD) (t : Fin cfg1.N) (d) : (dat1 V c).before 6 t d = iblk1 V c 6 t :=
  (dat1 V c).before_in_eq_fetched 6 rfl (fun _ => rfl) (fun _ _ _ => rfl) (fun _ => rfl) t d
theorem before1_7 (c : Dev nD) (t : Fin cfg1.N) (d) : (dat1 V c).before 7 t d = iblk1 V c 7 t :=
  (dat1 V c).before_in_eq_fetched 7 rfl (fun _ => rfl) (fun _ _ _ => rfl) (fun _ => rfl) t d
theorem before1_8 (c : Dev nD) (t : Fin cfg1.N) (d) : (dat1 V c).before 8 t d = iblk1 V c 8 t :=
  (dat1 V c).before_in_eq_fetched 8 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  unfold out1_9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun1 c (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t)).2 Set.univ _)
  iframe H0 H1 H2 H3 H4 H5 H6 H7 H8
  isplitl [H9]; · iexists _; iexact H9
  iintro ⟨H0, H1, H2, H3, H4, H5, H6, H7, H8, ⟨%e9, H9⟩⟩
  iframe HΦ Ho H0 H1 H2 H3 H4 H5 H6 H7 H8
  unfold owns; iexists _; isplitr
  swap; · iexact H9
  ipureintro; exact View.read_writes_of_cover _ _ _ _ _ (cover1_9 c _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Run.lean ====
import proofs.«425839_j19628000543020_3_alg».proof.Proof.KI.R0
import proofs.«425839_j19628000543020_3_alg».proof.Proof.KI.R1
import proofs.«425839_j19628000543020_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev X1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (X1 m ρ) c).arrAt w cfg0.N
theorem W2_arr (c : Dev nD) (w : Fin cfg0.W) :
    W2 m ρ c (Proc.devRef .tc (Pipeline.arrRef spec0 w)) = (dat0 (X1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev X2 : (c : Dev nD) → (b : Ref sig .tc) → Buf (Elt F) ((c : Thread nD τ).loc b) := fun c b => W2 m ρ c b
theorem hF0 (c : Dev nD) (w : Fin cfg0.W) : (dat0 (X1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = X1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev X3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (X3 m ρ) c).arrAt w cfg1.N
theorem W4_arr (c : Dev nD) (w : Fin cfg1.W) :
    W4 m ρ c (Proc.devRef .tc (Pipeline.arrRef spec1 w)) = (dat1 (X3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev X4 : (c : Dev nD) → (b : Ref sig .tc) → Buf (Elt F) ((c : Thread nD τ).loc b) := fun c b => W4 m ρ c b
theorem hF1 (c : Dev nD) (w : Fin cfg1.W) : (dat1 (X3 m ρ) c).arrAt w cfg1.N = X4 m ρ c (Pipeline.arrRef spec1 w) :=
  (W4_arr m ρ c w).symm
theorem hrest1 (c : Dev nD) : ∀ b, b ∉ Finset.univ.image (Pipeline.arrRef spec1) → X4 m ρ c b = X3 m ρ c b :=
  fun b hb => W4_of_ne m ρ c b fun w e => hb (Finset.mem_image.mpr ⟨w, Finset.mem_univ _, e⟩)

theorem W2_kept (c : Dev nD) (b : Ref sig .tc) (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (X1 m ρ) c).arrAt_in w (hb w rfl) _).trans (A_eq0 (X1 m ρ) c w))
  · exact W2_of_ne m ρ c b fun w e => h ⟨w, e⟩

theorem W4_kept (c : Dev nD) (b : Ref sig .tc) (hb : ∀ w, Pipeline.arrRef spec1 w = b → (cfg1.win w).isOut = false) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (X3 m ρ) c).arrAt_in w (hb w rfl) _).trans (A_eq1 (X3 m ρ) c w))
  · exact W4_of_ne m ρ c b fun w e => h ⟨w, e⟩

/-- An array that no host operation writes and that is no call's output ends as it started. -/
theorem W4_arg (c : Dev nD) (b : Ref sig .tc) (h1 : ∀ w, Pipeline.arrRef spec1 w = b → (cfg1.win w).isOut = false) (g1 : b ∉ hostOps1_W)
    (h0 : ∀ w, Pipeline.arrRef spec0 w = b → (cfg0.win w).isOut = false) (g0 : b ∉ hostOps0_W) :
    W4 m ρ c (Proc.devRef .tc b) = m ((c : Thread nD τ).loc b) :=
  (W4_kept m ρ c b h1).trans <| (StableHlo.after_of_writes_sub hostOps1 _ hostOps1_writes g1).trans <|
    (W2_kept m ρ c b h0).trans <| (StableHlo.after_of_writes_sub hostOps0 _ hostOps0_writes g0).trans rfl

abbrev admN : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) admN p) c
  | ⟨0, _⟩ => fun c => dat0 (X1 m ρ) c
  | ⟨1, _⟩ => fun c => dat1 (X3 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in

def reg0 : Pipeline.RegionSeg (pcfgs (F := F)) admN (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (X1 m ρ c)
  hentry c := by
    rw [Pipeline.ownSems0_none]
    have hsplit := Pipeline.arrays_of_unscopedBufs (p := 0) (pcfgs (F := F)) admN (pdats m ρ) launch0.win launch0.arr_whole c
      ((pdats m ρ 0 c).share_full fun _ => rfl) (X1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admN (Ix := Unit) (Name := ℕ) (U := UR sig nD τ) (Lvl := ℕ)
      launch0.win launch0.arr_whole c (pdats m ρ) ((pdats m ρ 0 c).share_full fun _ => rfl)
      (X1 m ρ c) (X2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) admN (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (X3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (X3 m ρ c)
  hentry c := by
    rw [Pipeline.ownSems0_none]
    have hsplit := Pipeline.arrays_of_unscopedBufs (p := 1) (pcfgs (F := F)) admN (pdats m ρ) launch1.win launch1.arr_whole c
      ((pdats m ρ 1 c).share_full fun _ => rfl) (X3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admN (Ix := Unit) (Name := ℕ) (U := UR sig nD τ) (Lvl := ℕ)
      launch1.win launch1.arr_whole c (pdats m ρ) ((pdats m ρ 1 c).share_full fun _ => rfl)
      (X3 m ρ c) (X4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev msegs : List (Pipeline.Seg (pcfgs (F := F)) admN (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (msegs m ρ) := (main_chain c).trans (by chain_rfl)

/-- Core `c`'s fifteen argument arrays are in `mem` as in the launch memory. -/
def Kept (mem : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)
    ∧ mem ((c.tc : Thread nD τ).loc main_arg12) = m ((c.tc : Thread nD τ).loc main_arg12)
    ∧ mem ((c.tc : Thread nD τ).loc main_arg13) = m ((c.tc : Thread nD τ).loc main_arg13)
    ∧ mem ((c.tc : Thread nD τ).loc main_arg14) = m ((c.tc : Thread nD τ).loc main_arg14)

set_option backward.isDefEq.respectTransparency.types false in

theorem run_values : θ_run defs (onTc (τ := τ) (main (F := F))) ⟨m, fun _ => 0, ρ⟩ (fun r => ∀ c : Dev nD,
      r.2.mem ((c.tc : Thread nD τ).loc main_v49) = (dat1 (X3 m ρ) c).arrAt 9 cfg1.N
      ∧ Kept m r.2.mem c) :=
  Pipeline.θ_run_regions_kit (pcfgs (F := F)) admN (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ (∃ r, prngReg c r) ∗ ∃ W, owes (c : Thread nD τ) (0 : CellTallies nD τ sig Unit) W)
        ⊢ iprop((StableHlo.held (c : Thread nD τ) (Pipeline.ucRefs τ sig) (W4 m ρ c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v49 (by decide))).trans (W4_arr m ρ c 9),
       (h c _ (mem_uc main_arg0 (by decide))).trans (W4_arg m ρ c main_arg0 (by decide) (by decide) (by decide) (by decide)),
       (h c _ (mem_uc main_arg1 (by decide))).trans (W4_arg m ρ c main_arg1 (by decide) (by decide) (by decide) (by decide)),
       (h c _ (mem_uc main_arg2 (by decide))).trans (W4_arg m ρ c main_arg2 (by decide) (by decide) (by decide) (by decide)),
       (h c _ (mem_uc main_arg3 (by decide))).trans (W4_arg m ρ c main_arg3 (by decide) (by decide) (by decide) (by decide)),
       (h c _ (mem_uc main_arg4 (by decide))).trans (W4_arg m ρ c main_arg4 (by decide) (by decide) (by decide) (by decide)),
       (h c _ (mem_uc main_arg5 (by decide))).trans (W4_arg m ρ c main_arg5 (by decide) (by decide) (by decide) (by decide)),
       (h c _ (mem_uc main_arg6 (by decide))).trans (W4_arg m ρ c main_arg6 (by decide) (by decide) (by decide) (by decide)),
       (h c _ (mem_uc main_arg7 (by decide))).trans (W4_arg m ρ c main_arg7 (by decide) (by decide) (by decide) (by decide)),
       (h c _ (mem_uc main_arg8 (by decide))).trans (W4_arg m ρ c main_arg8 (by decide) (by decide) (by decide) (by decide)),
       (h c _ (mem_uc main_arg9 (by decide))).trans (W4_arg m ρ c main_arg9 (by decide) (by decide) (by decide) (by decide)),
       (h c _ (mem_uc main_arg10 (by decide))).trans (W4_arg m ρ c main_arg10 (by decide) (by decide) (by decide) (by decide)),
       (h c _ (mem_uc main_arg11 (by decide))).trans (W4_arg m ρ c main_arg11 (by decide) (by decide) (by decide) (by decide)),
       (h c _ (mem_uc main_arg12 (by decide))).trans (W4_arg m ρ c main_arg12 (by decide) (by decide) (by decide) (by decide)),
       (h c _ (mem_uc main_arg13 (by decide))).trans (W4_arg m ρ c main_arg13 (by decide) (by decide) (by decide) (by decide)),
       (h c _ (mem_uc main_arg14 (by decide))).trans (W4_arg m ρ c main_arg14 (by decide) (by decide) (by decide) (by decide))⟩)

theorem frame : θ_run defs (onTc (τ := τ) (main (F := F))) ⟨m, fun _ => 0, ρ⟩ (fun r => ∀ c : Dev nD,
      Kept m r.2.mem c) :=
  (θ_run defs _ _).mono (fun _ h c => (h c).2) (run_values m ρ)

end Cert.KernelIdeal.Hand

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic

abbrev Act := Fin 4 → Fin 8192 → Fin 512 → EReal
abbrev Mat := Fin 512 → Fin 512 → EReal
abbrev Bias := Fin 512 → EReal

def col (h : Fin 8) (d : Fin 64) : Fin 512 := ⟨64 * h.val + d.val, by omega⟩

abbrev one : EReal := Ideal.ofBits .f32 0x3F800000#32
abbrev half : EReal := Ideal.ofBits .f32 0x3F000000#32

def lin (X : Act) (W : Mat) (b : Bias) : Act := fun n l o => (∑ e : Fin 512, X n l e * W o e) + b o

def lmax (z : Fin 64 → EReal) : EReal := max ⊥ ((Finset.univ : Finset (Fin 64)).fold max ⊥ z)

def smax (z : Fin 64 → EReal) (d : Fin 64) : EReal :=
  Ideal.div (Ideal.exp (z d - lmax z)) (∑ d' : Fin 64, Ideal.exp (z d' - lmax z))

def heads (X : Act) (W : Mat) (b : Bias) (n : Fin 4) (l : Fin 8192) (h : Fin 8) (d : Fin 64) : EReal :=
  smax (fun d' => lin X W b n l (col h d')) d

def vals (X : Act) (W : Mat) (b : Bias) (n : Fin 4) (l : Fin 8192) (h : Fin 8) (e : Fin 64) : EReal :=
  lin X W b n l (col h e)

def ksum (K : Fin 4 → Fin 8192 → Fin 8 → Fin 64 → EReal) (n : Fin 4) (h : Fin 8) (d : Fin 64) : EReal :=
  ∑ l : Fin 8192, K n l h d

def kv (K Vv : Fin 4 → Fin 8192 → Fin 8 → Fin 64 → EReal) (n : Fin 4) (h : Fin 8) (d e : Fin 64) : EReal :=
  ∑ l : Fin 8192, K n l h d * Vv n l h e

def att (Q : Fin 4 → Fin 8192 → Fin 8 → Fin 64 → EReal) (ks : Fin 4 → Fin 8 → Fin 64 → EReal)
    (kvs : Fin 4 → Fin 8 → Fin 64 → Fin 64 → EReal) (n : Fin 4) (l : Fin 8192) (h : Fin 8) (e : Fin 64) : EReal :=
  Ideal.div one (∑ d : Fin 64, Q n l h d * ks n h d) * ∑ d : Fin 64, Q n l h d * kvs n h d e

def resH (Q : Fin 4 → Fin 8192 → Fin 8 → Fin 64 → EReal) (a0 a1 : Fin 4 → Fin 8192 → Fin 8 → Fin 64 → EReal)
    (n : Fin 4) (l : Fin 8192) (h : Fin 8) (e : Fin 64) : EReal :=
  Q n l h e + half * (a0 n l h e + a1 n l h e)

def merge (R : Fin 4 → Fin 8192 → Fin 8 → Fin 64 → EReal) : Act :=
  fun n l j => R n l ⟨j.val / 64, by omega⟩ ⟨j.val % 64, by omega⟩

def result (query f0 f1 : Act) (Wq : Mat) (bq : Bias) (Wk0 : Mat) (bk0 : Bias) (Wv0 : Mat) (bv0 : Bias)
    (Wk1 : Mat) (bk1 : Bias) (Wv1 : Mat) (bv1 : Bias) (Wo : Mat) (bo : Bias) : Act :=
  let Q := heads query Wq bq
  let K0 := heads f0 Wk0 bk0
  let K1 := heads f1 Wk1 bk1
  let a0 := att Q (ksum K0) (kv K0 (vals f0 Wv0 bv0))
  let a1 := att Q (ksum K1) (kv K1 (vals f1 Wv1 bv1))
  lin (merge (resH Q a0 a1)) Wo bo

abbrev act (x : (⟨3, ![4, 8192, 512]⟩ : Shape).Idx → EReal) : Act := fun n l e => x (ValueIdx.ix3 n l e)
abbrev mat (x : (⟨2, ![512, 512]⟩ : Shape).Idx → EReal) : Mat := fun o e => x (ValueIdx.ix2 o e)
abbrev bias (x : (⟨1, ![512]⟩ : Shape).Idx → EReal) : Bias := fun o => x (ValueIdx.ix1 o)

end Cert.Spec

end
-- ==== Proof.SpecLemmas.lean ====
import proofs.«425839_j19628000543020_3_alg».proof.Proof.Spec
import Mathlib.Algebra.BigOperators.Fin
import Mathlib.Data.Fintype.BigOperators
import Mathlib.Logic.Equiv.Fin.Basic

noncomputable section

namespace Cert.Spec

open Idealize.ShloMosaic

def tileAcc {M : Type*} [AddCommMonoid M] (s : ℕ → M) : ℕ → M
  | 0 => 0 + s 0
  | k + 1 => tileAcc s k + s (k + 1)

abbrev matT (x : (⟨2, ![512, 512]⟩ : Shape).Idx → EReal) : Mat := fun o e => x (ValueIdx.ix2 e o)

abbrev ks3 (x : (⟨3, ![4, 8, 64]⟩ : Shape).Idx → EReal) : Fin 4 → Fin 8 → Fin 64 → EReal :=
  fun n h d => x (ValueIdx.ix3 n h d)

abbrev kv4 (x : (⟨4, ![4, 8, 64, 64]⟩ : Shape).Idx → EReal) : Fin 4 → Fin 8 → Fin 64 → Fin 64 → EReal :=
  fun n h d e => x (ValueIdx.ix4 n h d e)

def pass2 (query : Act) (Wq : Mat) (bq : Bias) (ks0 : Fin 4 → Fin 8 → Fin 64 → EReal)
    (kvs0 : Fin 4 → Fin 8 → Fin 64 → Fin 64 → EReal) (ks1 : Fin 4 → Fin 8 → Fin 64 → EReal)
    (kvs1 : Fin 4 → Fin 8 → Fin 64 → Fin 64 → EReal) (Wo : Mat) (bo : Bias) : Act :=
  let Q := heads query Wq bq
  lin (merge (resH Q (att Q ks0 kvs0) (att Q ks1 kvs1))) Wo bo

theorem sum_tiles {M : Type*} [AddCommMonoid M] (g : Fin 8192 → M) :
    ∑ l : Fin 8192, g l = ∑ t : Fin 8, ∑ r : Fin 1024, g ⟨1024 * t.val + r.val, by omega⟩ := by

  calc ∑ l : Fin 8192, g l
      = ∑ p : Fin 8 × Fin 1024, g ((finProdFinEquiv : Fin 8 × Fin 1024 ≃ Fin (8 * 1024)) p) :=
        (Equiv.sum_comp (finProdFinEquiv : Fin 8 × Fin 1024 ≃ Fin (8 * 1024)) g).symm
    _ = ∑ t : Fin 8, ∑ r : Fin 1024, g ((finProdFinEquiv : Fin 8 × Fin 1024 ≃ Fin (8 * 1024)) (t, r)) :=
        Fintype.sum_prod_type _
    _ = ∑ t : Fin 8, ∑ r : Fin 1024, g ⟨1024 * t.val + r.val, by omega⟩ := by
        refine Finset.sum_congr rfl fun t _ => Finset.sum_congr rfl fun r _ => ?_
        congr 1
        apply Fin.ext
        simp only [finProdFinEquiv_apply_val]
        omega

theorem tileAcc_eq_sum {M : Type*} [AddCommMonoid M] (s : ℕ → M) (k : ℕ) :
    tileAcc s k = ∑ t ∈ Finset.range (k + 1), s t := by
  induction k with
  | zero => simp [tileAcc]
  | succ k ih => rw [tileAcc, ih, Finset.sum_range_succ _ (k + 1)]

theorem tileAcc_seven {M : Type*} [AddCommMonoid M] (s : ℕ → M) : tileAcc s 7 = ∑ t : Fin 8, s t.val := by
  rw [tileAcc_eq_sum, Finset.sum_range]

theorem acc_tiles {M : Type*} [AddCommMonoid M] (g : Fin 8192 → M) :
    tileAcc (fun t => ∑ r : Fin 1024, g ⟨(1024 * t + r.val) % 8192, by omega⟩) 7 = ∑ l : Fin 8192, g l := by
  rw [tileAcc_seven, sum_tiles]
  refine Finset.sum_congr rfl fun t _ => Finset.sum_congr rfl fun r _ => ?_
  congr 1
  apply Fin.ext
  show (1024 * t.val + r.val) % 8192 = 1024 * t.val + r.val
  omega

theorem col_div (h : Fin 8) (d : Fin 64) : (col h d).val / 64 = h.val := by
  show (64 * h.val + d.val) / 64 = h.val
  omega

theorem col_mod (h : Fin 8) (d : Fin 64) : (col h d).val % 64 = d.val := by
  show (64 * h.val + d.val) % 64 = d.val
  omega

theorem col_div_mod (j : Fin 512) : col ⟨j.val / 64, by omega⟩ ⟨j.val % 64, by omega⟩ = j := by
  apply Fin.ext
  show 64 * (j.val / 64) + j.val % 64 = j.val
  omega

theorem lmax_eq (z : Fin 64 → EReal) : lmax z = (Finset.univ : Finset (Fin 64)).fold max ⊥ z := by

  exact max_eq_right bot_le

theorem ofBits_neg_inf : Ideal.ofBits .f32 0xFF800000#32 = (⊥ : EReal) := by

  simp [Ideal.ofBits, Ideal.ieee]

theorem result_eq_pass2 (query f0 f1 : Act) (Wq : Mat) (bq : Bias) (Wk0 : Mat) (bk0 : Bias) (Wv0 : Mat)
    (bv0 : Bias) (Wk1 : Mat) (bk1 : Bias) (Wv1 : Mat) (bv1 : Bias) (Wo : Mat) (bo : Bias) :
    result query f0 f1 Wq bq Wk0 bk0 Wv0 bv0 Wk1 bk1 Wv1 bv1 Wo bo
      = pass2 query Wq bq (ksum (heads f0 Wk0 bk0)) (kv (heads f0 Wk0 bk0) (vals f0 Wv0 bv0))
          (ksum (heads f1 Wk1 bk1)) (kv (heads f1 Wk1 bk1) (vals f1 Wv1 bv1)) Wo bo := rfl

end Cert.Spec

end
-- ==== Proof.HostVal.lean ====
import proofs.«425839_j19628000543020_3_alg».proof.Proof.Gen.KernelIdeal.Launch
import proofs.«425839_j19628000543020_3_alg».proof.Proof.SpecLemmas
import Idealize.ShloMosaic.Lib.StableHlo.Run
import Idealize.ShloMosaic.Lib.ValueIdx
import Idealize.ShloMosaic.Lib.Pipeline.Value
import Idealize.ShloMosaic.Lib.ValueLayout
import Mathlib.Tactic.FinCases

noncomputable section

namespace Cert.KernelIdeal.HostVal

open Idealize.ShloMosaic Idealize.ShloMosaic.StableHlo Idealize.ShloMosaic.ValueIdx
open Cert.KernelIdeal Cert.KernelIdeal.Gen

section Pieces
variable {α : Type}

theorem block_apply (x : S4x512x512.Idx → α) (o : Nat) (hs : S4x512x512.Slices ![0, o, o] S4x64x64)
    (hb : S4x64x64.BroadcastsInDim S4x1x64x64 (![0, 2, 3] : Fin 3 → Fin S4x1x64x64.rank))
    (n : Fin 4) (u : Fin 1) (d e : Fin 64) (h : Fin 8) (ho : o = 64 * h.val) :
    broadcastInDim S4x1x64x64 ![0, 2, 3] hb (extractStridedSlice S4x64x64 ![0, o, o] x hs) (ix4 n u d e)
      = x (ix3 n (Cert.Spec.col h d) (Cert.Spec.col h e)) := by
  refine (broadcastInDim_apply _ hb _ (ix4 n u d e) (ix3 n d e) fun a => ?_).trans ?_
  · match a with
    | ⟨0, _⟩ => rfl
    | ⟨1, _⟩ => rfl
    | ⟨2, _⟩ => rfl
  · refine extractStridedSlice_apply _ x hs (ix3 n d e) (ix3 n (Cert.Spec.col h d) (Cert.Spec.col h e)) fun a => ?_
    match a with
    | ⟨0, _⟩ => show n.val = 0 + n.val; omega
    | ⟨1, _⟩ => show 64 * h.val + d.val = o + d.val; omega
    | ⟨2, _⟩ => show 64 * h.val + e.val = o + e.val; omega

theorem concat8_apply (f : Fin 8 → (S4x1x64x64.Idx → α))
    (hc : Shape.Concatenates [S4x1x64x64, S4x1x64x64, S4x1x64x64, S4x1x64x64, S4x1x64x64, S4x1x64x64, S4x1x64x64, S4x1x64x64] S4x8x64x64 1)
    (n : Fin 4) (h : Fin 8) (d e : Fin 64) :
    concatenate S4x8x64x64 1 [⟨S4x1x64x64, f 0⟩, ⟨S4x1x64x64, f 1⟩, ⟨S4x1x64x64, f 2⟩, ⟨S4x1x64x64, f 3⟩,
        ⟨S4x1x64x64, f 4⟩, ⟨S4x1x64x64, f 5⟩, ⟨S4x1x64x64, f 6⟩, ⟨S4x1x64x64, f 7⟩] hc (ix4 n h d e)
      = f h (ix4 n (0 : Fin 1) d e) :=
  concatenate_ofFn_unit_apply (t := S4x8x64x64) (s₁ := S4x1x64x64) 1 f hc rfl rfl (ix4 n h d e) h rfl (ix4 n (0 : Fin 1) d e)
    fun b hb => match b with
      | ⟨0, _⟩ => rfl
      | ⟨1, _⟩ => absurd rfl hb
      | ⟨2, _⟩ => rfl
      | ⟨3, _⟩ => rfl

theorem recast_apply (x : S4x1x512.Idx → α) (hc : S4x1x512.ShapeCasts S4x8x64) (n : Fin 4) (h : Fin 8) (d : Fin 64) :
    shapeCast S4x8x64 x hc (ix3 n h d) = x (ix3 n (0 : Fin 1) (Cert.Spec.col h d)) := by
  refine shapeCast_apply x hc _ _ ?_
  rw [Shape.rowMajor_val_three, Shape.rowMajor_val_three]
  show (n.val * 1 + 0) * 512 + (64 * h.val + d.val) = (n.val * 8 + h.val) * 64 + d.val
  omega
end Pieces

section Stack
variable {α : Type}

theorem stack_apply (x : S4x512x512.Idx → α)
    (hs0 : S4x512x512.Slices ![0, 0, 0] S4x64x64)
    (hs64 : S4x512x512.Slices ![0, 64, 64] S4x64x64)
    (hs128 : S4x512x512.Slices ![0, 128, 128] S4x64x64)
    (hs192 : S4x512x512.Slices ![0, 192, 192] S4x64x64)
    (hs256 : S4x512x512.Slices ![0, 256, 256] S4x64x64)
    (hs320 : S4x512x512.Slices ![0, 320, 320] S4x64x64)
    (hs384 : S4x512x512.Slices ![0, 384, 384] S4x64x64)
    (hs448 : S4x512x512.Slices ![0, 448, 448] S4x64x64)
    (hb : S4x64x64.BroadcastsInDim S4x1x64x64 (![0, 2, 3] : Fin 3 → Fin S4x1x64x64.rank))
    (hc : Shape.Concatenates [S4x1x64x64, S4x1x64x64, S4x1x64x64, S4x1x64x64, S4x1x64x64, S4x1x64x64, S4x1x64x64, S4x1x64x64] S4x8x64x64 1)
    (n : Fin 4) (h : Fin 8) (d e : Fin 64) :
    concatenate S4x8x64x64 1 [⟨S4x1x64x64, broadcastInDim S4x1x64x64 ![0, 2, 3] hb (extractStridedSlice S4x64x64 ![0, 0, 0] x hs0)⟩,
        ⟨S4x1x64x64, broadcastInDim S4x1x64x64 ![0, 2, 3] hb (extractStridedSlice S4x64x64 ![0, 64, 64] x hs64)⟩,
        ⟨S4x1x64x64, broadcastInDim S4x1x64x64 ![0, 2, 3] hb (extractStridedSlice S4x64x64 ![0, 128, 128] x hs128)⟩,
        ⟨S4x1x64x64, broadcastInDim S4x1x64x64 ![0, 2, 3] hb (extractStridedSlice S4x64x64 ![0, 192, 192] x hs192)⟩,
        ⟨S4x1x64x64, broadcastInDim S4x1x64x64 ![0, 2, 3] hb (extractStridedSlice S4x64x64 ![0, 256, 256] x hs256)⟩,
        ⟨S4x1x64x64, broadcastInDim S4x1x64x64 ![0, 2, 3] hb (extractStridedSlice S4x64x64 ![0, 320, 320] x hs320)⟩,
        ⟨S4x1x64x64, broadcastInDim S4x1x64x64 ![0, 2, 3] hb (extractStridedSlice S4x64x64 ![0, 384, 384] x hs384)⟩,
        ⟨S4x1x64x64, broadcastInDim S4x1x64x64 ![0, 2, 3] hb (extractStridedSlice S4x64x64 ![0, 448, 448] x hs448)⟩] hc (ix4 n h d e)
      = x (ix3 n (Cert.Spec.col h d) (Cert.Spec.col h e)) := by
  refine (concat8_apply (![broadcastInDim S4x1x64x64 ![0, 2, 3] hb (extractStridedSlice S4x64x64 ![0, 0, 0] x hs0),
        broadcastInDim S4x1x64x64 ![0, 2, 3] hb (extractStridedSlice S4x64x64 ![0, 64, 64] x hs64),
        broadcastInDim S4x1x64x64 ![0, 2, 3] hb (extractStridedSlice S4x64x64 ![0, 128, 128] x hs128),
        broadcastInDim S4x1x64x64 ![0, 2, 3] hb (extractStridedSlice S4x64x64 ![0, 192, 192] x hs192),
        broadcastInDim S4x1x64x64 ![0, 2, 3] hb (extractStridedSlice S4x64x64 ![0, 256, 256] x hs256),
        broadcastInDim S4x1x64x64 ![0, 2, 3] hb (extractStridedSlice S4x64x64 ![0, 320, 320] x hs320),
        broadcastInDim S4x1x64x64 ![0, 2, 3] hb (extractStridedSlice S4x64x64 ![0, 384, 384] x hs384),
        broadcastInDim S4x1x64x64 ![0, 2, 3] hb (extractStridedSlice S4x64x64 ![0, 448, 448] x hs448)] : Fin 8 → (S4x1x64x64.Idx → α)) hc n h d e).trans ?_
  fin_cases h
  · exact block_apply x 0 hs0 hb n 0 d e 0 rfl
  · exact block_apply x 64 hs64 hb n 0 d e 1 rfl
  · exact block_apply x 128 hs128 hb n 0 d e 2 rfl
  · exact block_apply x 192 hs192 hb n 0 d e 3 rfl
  · exact block_apply x 256 hs256 hb n 0 d e 4 rfl
  · exact block_apply x 320 hs320 hb n 0 d e 5 rfl
  · exact block_apply x 384 hs384 hb n 0 d e 6 rfl
  · exact block_apply x 448 hs448 hb n 0 d e 7 rfl
end Stack

theorem matT_truncf_transpose (x : S512x512.Idx → EReal) (h : S512x512.Transposes [1, 0] S512x512)
    (hb : FTy.bits .bf16 < FTy.bits .f32) :
    Cert.Spec.matT (truncf (F := Ideal) (s := S512x512) (φ := .f32) .bf16 (transpose S512x512 [1, 0] x h) hb)
      = Cert.Spec.mat x := by
  funext o e
  show transpose S512x512 [1, 0] x h (ix2 e o) = x (ix2 o e)
  exact transpose_ix2_apply x h e o

section Fold
variable {τ' : Topo} {sig' : RefSig} {Val : EltTy → Type}

theorem after_take_drop (k : Nat) : ∀ (ops : List (HloOp τ' sig' Val)) (V : Valuation τ' sig' Val),
    StableHlo.after ops V = StableHlo.after (ops.drop k) (StableHlo.after (ops.take k) V) := by
  induction k with
  | zero => intro ops V; rfl
  | succ k ih =>
    intro ops V
    cases ops with
    | nil => rfl
    | cons op ops => exact ih ops _
end Fold

macro "host_results" : tactic =>
  `(tactic| (repeat (first
               | rw [unary_result] | rw [reshape_result] | rw [nary_result]
               | (rw [unary_result_ne]; rotate_left; decide)
               | (rw [reshape_result_ne]; rotate_left; decide)
               | (rw [nary_result_ne]; rotate_left; decide))))

section First
variable (W : Valuation τ sig (Elt Ideal))

theorem after0_v1 :
    Cert.Spec.matT (StableHlo.after (hostOps0 (F := Ideal)) W (Proc.devRef .tc main_v1))
      = Cert.Spec.mat (W (Proc.devRef .tc main_arg3)) := by
  dsimp only [hostOps0]
  simp only [after_cons, after_nil]
  host_results
  exact matT_truncf_transpose _ _ _

theorem after0_v3 :
    Cert.Spec.matT (StableHlo.after (hostOps0 (F := Ideal)) W (Proc.devRef .tc main_v3))
      = Cert.Spec.mat (W (Proc.devRef .tc main_arg5)) := by
  dsimp only [hostOps0]
  simp only [after_cons, after_nil]
  host_results
  exact matT_truncf_transpose _ _ _

theorem after0_v5 :
    Cert.Spec.matT (StableHlo.after (hostOps0 (F := Ideal)) W (Proc.devRef .tc main_v5))
      = Cert.Spec.mat (W (Proc.devRef .tc main_arg7)) := by
  dsimp only [hostOps0]
  simp only [after_cons, after_nil]
  host_results
  exact matT_truncf_transpose _ _ _

theorem after0_v7 :
    Cert.Spec.matT (StableHlo.after (hostOps0 (F := Ideal)) W (Proc.devRef .tc main_v7))
      = Cert.Spec.mat (W (Proc.devRef .tc main_arg9)) := by
  dsimp only [hostOps0]
  simp only [after_cons, after_nil]
  host_results
  exact matT_truncf_transpose _ _ _

theorem after0_v9 :
    Cert.Spec.matT (StableHlo.after (hostOps0 (F := Ideal)) W (Proc.devRef .tc main_v9))
      = Cert.Spec.mat (W (Proc.devRef .tc main_arg11)) := by
  dsimp only [hostOps0]
  simp only [after_cons, after_nil]
  host_results
  exact matT_truncf_transpose _ _ _

theorem after0_v11 :
    Cert.Spec.matT (StableHlo.after (hostOps0 (F := Ideal)) W (Proc.devRef .tc main_v11))
      = Cert.Spec.mat (W (Proc.devRef .tc main_arg13)) := by
  dsimp only [hostOps0]
  simp only [after_cons, after_nil]
  host_results
  exact matT_truncf_transpose _ _ _
end First

section Second
variable (W V : Valuation τ sig (Elt Ideal))

theorem tail_v29 :
    StableHlo.after ((hostOps1 (F := Ideal)).drop 17) V (Proc.devRef .tc main_v29) = V (Proc.devRef .tc main_v29) := by
  dsimp only [hostOps1, List.drop]
  simp only [after_cons, after_nil]
  host_results

theorem cat_v29 :
    StableHlo.after (((hostOps1 (F := Ideal)).take 17).drop 16) V (Proc.devRef .tc main_v29)
      = concatenate S4x8x64x64 1 [⟨S4x1x64x64, V (Proc.devRef .tc main_v21)⟩,
        ⟨S4x1x64x64, V (Proc.devRef .tc main_v22)⟩,
        ⟨S4x1x64x64, V (Proc.devRef .tc main_v23)⟩,
        ⟨S4x1x64x64, V (Proc.devRef .tc main_v24)⟩,
        ⟨S4x1x64x64, V (Proc.devRef .tc main_v25)⟩,
        ⟨S4x1x64x64, V (Proc.devRef .tc main_v26)⟩,
        ⟨S4x1x64x64, V (Proc.devRef .tc main_v27)⟩,
        ⟨S4x1x64x64, V (Proc.devRef .tc main_v28)⟩]
        concatenates_S4x1x64x64_S4x1x64x64_S4x1x64x64_S4x1x64x64_S4x1x64x64_S4x1x64x64_S4x1x64x64_S4x1x64x64_S4x8x64x64_d1 := by
  dsimp only [hostOps1, List.drop, List.take]
  simp only [after_cons, after_nil]
  rw [nary_result]
  rfl

theorem blockA_0 :
    StableHlo.after (((hostOps1 (F := Ideal)).take 17).take 16) W (Proc.devRef .tc main_v21)
      = broadcastInDim S4x1x64x64 ![0, 2, 3] bcast_S4x64x64_S4x1x64x64_0_2_3 (extractStridedSlice S4x64x64 ![0, 0, 0] (W (Proc.devRef .tc main_v12_0)) slices_S4x512x512_S4x64x64_0_0_0) := by
  dsimp only [hostOps1, List.take]
  simp only [after_cons, after_nil]
  host_results

theorem blockA_1 :
    StableHlo.after (((hostOps1 (F := Ideal)).take 17).take 16) W (Proc.devRef .tc main_v22)
      = broadcastInDim S4x1x64x64 ![0, 2, 3] bcast_S4x64x64_S4x1x64x64_0_2_3 (extractStridedSlice S4x64x64 ![0, 64, 64] (W (Proc.devRef .tc main_v12_0)) slices_S4x512x512_S4x64x64_0_64_64) := by
  dsimp only [hostOps1, List.take]
  simp only [after_cons, after_nil]
  host_results

theorem blockA_2 :
    StableHlo.after (((hostOps1 (F := Ideal)).take 17).take 16) W (Proc.devRef .tc main_v23)
      = broadcastInDim S4x1x64x64 ![0, 2, 3] bcast_S4x64x64_S4x1x64x64_0_2_3 (extractStridedSlice S4x64x64 ![0, 128, 128] (W (Proc.devRef .tc main_v12_0)) slices_S4x512x512_S4x64x64_0_128_128) := by
  dsimp only [hostOps1, List.take]
  simp only [after_cons, after_nil]
  host_results

theorem blockA_3 :
    StableHlo.after (((hostOps1 (F := Ideal)).take 17).take 16) W (Proc.devRef .tc main_v24)
      = broadcastInDim S4x1x64x64 ![0, 2, 3] bcast_S4x64x64_S4x1x64x64_0_2_3 (extractStridedSlice S4x64x64 ![0, 192, 192] (W (Proc.devRef .tc main_v12_0)) slices_S4x512x512_S4x64x64_0_192_192) := by
  dsimp only [hostOps1, List.take]
  simp only [after_cons, after_nil]
  host_results

theorem blockA_4 :
    StableHlo.after (((hostOps1 (F := Ideal)).take 17).take 16) W (Proc.devRef .tc main_v25)
      = broadcastInDim S4x1x64x64 ![0, 2, 3] bcast_S4x64x64_S4x1x64x64_0_2_3 (extractStridedSlice S4x64x64 ![0, 256, 256] (W (Proc.devRef .tc main_v12_0)) slices_S4x512x512_S4x64x64_0_256_256) := by
  dsimp only [hostOps1, List.take]
  simp only [after_cons, after_nil]
  host_results

theorem blockA_5 :
    StableHlo.after (((hostOps1 (F := Ideal)).take 17).take 16) W (Proc.devRef .tc main_v26)
      = broadcastInDim S4x1x64x64 ![0, 2, 3] bcast_S4x64x64_S4x1x64x64_0_2_3 (extractStridedSlice S4x64x64 ![0, 320, 320] (W (Proc.devRef .tc main_v12_0)) slices_S4x512x512_S4x64x64_0_320_320) := by
  dsimp only [hostOps1, List.take]
  simp only [after_cons, after_nil]
  host_results

theorem blockA_6 :
    StableHlo.after (((hostOps1 (F := Ideal)).take 17).take 16) W (Proc.devRef .tc main_v27)
      = broadcastInDim S4x1x64x64 ![0, 2, 3] bcast_S4x64x64_S4x1x64x64_0_2_3 (extractStridedSlice S4x64x64 ![0, 384, 384] (W (Proc.devRef .tc main_v12_0)) slices_S4x512x512_S4x64x64_0_384_384) := by
  dsimp only [hostOps1, List.take]
  simp only [after_cons, after_nil]
  host_results

theorem blockA_7 :
    StableHlo.after (((hostOps1 (F := Ideal)).take 17).take 16) W (Proc.devRef .tc main_v28)
      = broadcastInDim S4x1x64x64 ![0, 2, 3] bcast_S4x64x64_S4x1x64x64_0_2_3 (extractStridedSlice S4x64x64 ![0, 448, 448] (W (Proc.devRef .tc main_v12_0)) slices_S4x512x512_S4x64x64_0_448_448) := by
  dsimp only [hostOps1, List.take]
  simp only [after_cons, after_nil]
  host_results

theorem term_v29 :
    StableHlo.after (hostOps1 (F := Ideal)) W (Proc.devRef .tc main_v29)
      = concatenate S4x8x64x64 1 [⟨S4x1x64x64, broadcastInDim S4x1x64x64 ![0, 2, 3] bcast_S4x64x64_S4x1x64x64_0_2_3 (extractStridedSlice S4x64x64 ![0, 0, 0] (W (Proc.devRef .tc main_v12_0)) slices_S4x512x512_S4x64x64_0_0_0)⟩,
        ⟨S4x1x64x64, broadcastInDim S4x1x64x64 ![0, 2, 3] bcast_S4x64x64_S4x1x64x64_0_2_3 (extractStridedSlice S4x64x64 ![0, 64, 64] (W (Proc.devRef .tc main_v12_0)) slices_S4x512x512_S4x64x64_0_64_64)⟩,
        ⟨S4x1x64x64, broadcastInDim S4x1x64x64 ![0, 2, 3] bcast_S4x64x64_S4x1x64x64_0_2_3 (extractStridedSlice S4x64x64 ![0, 128, 128] (W (Proc.devRef .tc main_v12_0)) slices_S4x512x512_S4x64x64_0_128_128)⟩,
        ⟨S4x1x64x64, broadcastInDim S4x1x64x64 ![0, 2, 3] bcast_S4x64x64_S4x1x64x64_0_2_3 (extractStridedSlice S4x64x64 ![0, 192, 192] (W (Proc.devRef .tc main_v12_0)) slices_S4x512x512_S4x64x64_0_192_192)⟩,
        ⟨S4x1x64x64, broadcastInDim S4x1x64x64 ![0, 2, 3] bcast_S4x64x64_S4x1x64x64_0_2_3 (extractStridedSlice S4x64x64 ![0, 256, 256] (W (Proc.devRef .tc main_v12_0)) slices_S4x512x512_S4x64x64_0_256_256)⟩,
        ⟨S4x1x64x64, broadcastInDim S4x1x64x64 ![0, 2, 3] bcast_S4x64x64_S4x1x64x64_0_2_3 (extractStridedSlice S4x64x64 ![0, 320, 320] (W (Proc.devRef .tc main_v12_0)) slices_S4x512x512_S4x64x64_0_320_320)⟩,
        ⟨S4x1x64x64, broadcastInDim S4x1x64x64 ![0, 2, 3] bcast_S4x64x64_S4x1x64x64_0_2_3 (extractStridedSlice S4x64x64 ![0, 384, 384] (W (Proc.devRef .tc main_v12_0)) slices_S4x512x512_S4x64x64_0_384_384)⟩,
        ⟨S4x1x64x64, broadcastInDim S4x1x64x64 ![0, 2, 3] bcast_S4x64x64_S4x1x64x64_0_2_3 (extractStridedSlice S4x64x64 ![0, 448, 448] (W (Proc.devRef .tc main_v12_0)) slices_S4x512x512_S4x64x64_0_448_448)⟩]
        concatenates_S4x1x64x64_S4x1x64x64_S4x1x64x64_S4x1x64x64_S4x1x64x64_S4x1x64x64_S4x1x64x64_S4x1x64x64_S4x8x64x64_d1 := by
  rw [after_take_drop 17, tail_v29, after_take_drop 16 (List.take 17 _), cat_v29,
    blockA_0, blockA_1, blockA_2, blockA_3, blockA_4, blockA_5, blockA_6, blockA_7]

theorem after1_v29 (n : Fin 4) (h : Fin 8) (d e : Fin 64) :
    StableHlo.after (hostOps1 (F := Ideal)) W (Proc.devRef .tc main_v29) (ix4 n h d e)
      = W (Proc.devRef .tc main_v12_0) (ix3 n (Cert.Spec.col h d) (Cert.Spec.col h e)) := by
  rw [term_v29]
  exact stack_apply _ _ _ _ _ _ _ _ _ _ _ n h d e

theorem tail_v46 :
    StableHlo.after ((hostOps1 (F := Ideal)).drop 34) V (Proc.devRef .tc main_v46) = V (Proc.devRef .tc main_v46) := by
  dsimp only [hostOps1, List.drop]
  simp only [after_cons, after_nil]
  host_results

theorem cat_v46 :
    StableHlo.after (((hostOps1 (F := Ideal)).take 34).drop 33) V (Proc.devRef .tc main_v46)
      = concatenate S4x8x64x64 1 [⟨S4x1x64x64, V (Proc.devRef .tc main_v38)⟩,
        ⟨S4x1x64x64, V (Proc.devRef .tc main_v39)⟩,
        ⟨S4x1x64x64, V (Proc.devRef .tc main_v40)⟩,
        ⟨S4x1x64x64, V (Proc.devRef .tc main_v41)⟩,
        ⟨S4x1x64x64, V (Proc.devRef .tc main_v42)⟩,
        ⟨S4x1x64x64, V (Proc.devRef .tc main_v43)⟩,
        ⟨S4x1x64x64, V (Proc.devRef .tc main_v44)⟩,
        ⟨S4x1x64x64, V (Proc.devRef .tc main_v45)⟩]
        concatenates_S4x1x64x64_S4x1x64x64_S4x1x64x64_S4x1x64x64_S4x1x64x64_S4x1x64x64_S4x1x64x64_S4x1x64x64_S4x8x64x64_d1 := by
  dsimp only [hostOps1, List.drop, List.take]
  simp only [after_cons, after_nil]
  rw [nary_result]
  rfl

theorem head_v12_2 :
    StableHlo.after ((((hostOps1 (F := Ideal)).take 34).take 33).take 17) W (Proc.devRef .tc main_v12_2)
      = W (Proc.devRef .tc main_v12_2) := by
  dsimp only [hostOps1, List.take]
  simp only [after_cons, after_nil]
  host_results

theorem blockB_0 :
    StableHlo.after ((((hostOps1 (F := Ideal)).take 34).take 33).drop 17) V (Proc.devRef .tc main_v38)
      = broadcastInDim S4x1x64x64 ![0, 2, 3] bcast_S4x64x64_S4x1x64x64_0_2_3 (extractStridedSlice S4x64x64 ![0, 0, 0] (V (Proc.devRef .tc main_v12_2)) slices_S4x512x512_S4x64x64_0_0_0) := by
  dsimp only [hostOps1, List.take, List.drop]
  simp only [after_cons, after_nil]
  host_results

theorem blockB_1 :
    StableHlo.after ((((hostOps1 (F := Ideal)).take 34).take 33).drop 17) V (Proc.devRef .tc main_v39)
      = broadcastInDim S4x1x64x64 ![0, 2, 3] bcast_S4x64x64_S4x1x64x64_0_2_3 (extractStridedSlice S4x64x64 ![0, 64, 64] (V (Proc.devRef .tc main_v12_2)) slices_S4x512x512_S4x64x64_0_64_64) := by
  dsimp only [hostOps1, List.take, List.drop]
  simp only [after_cons, after_nil]
  host_results

theorem blockB_2 :
    StableHlo.after ((((hostOps1 (F := Ideal)).take 34).take 33).drop 17) V (Proc.devRef .tc main_v40)
      = broadcastInDim S4x1x64x64 ![0, 2, 3] bcast_S4x64x64_S4x1x64x64_0_2_3 (extractStridedSlice S4x64x64 ![0, 128, 128] (V (Proc.devRef .tc main_v12_2)) slices_S4x512x512_S4x64x64_0_128_128) := by
  dsimp only [hostOps1, List.take, List.drop]
  simp only [after_cons, after_nil]
  host_results

theorem blockB_3 :
    StableHlo.after ((((hostOps1 (F := Ideal)).take 34).take 33).drop 17) V (Proc.devRef .tc main_v41)
      = broadcastInDim S4x1x64x64 ![0, 2, 3] bcast_S4x64x64_S4x1x64x64_0_2_3 (extractStridedSlice S4x64x64 ![0, 192, 192] (V (Proc.devRef .tc main_v12_2)) slices_S4x512x512_S4x64x64_0_192_192) := by
  dsimp only [hostOps1, List.take, List.drop]
  simp only [after_cons, after_nil]
  host_results

theorem blockB_4 :
    StableHlo.after ((((hostOps1 (F := Ideal)).take 34).take 33).drop 17) V (Proc.devRef .tc main_v42)
      = broadcastInDim S4x1x64x64 ![0, 2, 3] bcast_S4x64x64_S4x1x64x64_0_2_3 (extractStridedSlice S4x64x64 ![0, 256, 256] (V (Proc.devRef .tc main_v12_2)) slices_S4x512x512_S4x64x64_0_256_256) := by
  dsimp only [hostOps1, List.take, List.drop]
  simp only [after_cons, after_nil]
  host_results

theorem blockB_5 :
    StableHlo.after ((((hostOps1 (F := Ideal)).take 34).take 33).drop 17) V (Proc.devRef .tc main_v43)
      = broadcastInDim S4x1x64x64 ![0, 2, 3] bcast_S4x64x64_S4x1x64x64_0_2_3 (extractStridedSlice S4x64x64 ![0, 320, 320] (V (Proc.devRef .tc main_v12_2)) slices_S4x512x512_S4x64x64_0_320_320) := by
  dsimp only [hostOps1, List.take, List.drop]
  simp only [after_cons, after_nil]
  host_results

theorem blockB_6 :
    StableHlo.after ((((hostOps1 (F := Ideal)).take 34).take 33).drop 17) V (Proc.devRef .tc main_v44)
      = broadcastInDim S4x1x64x64 ![0, 2, 3] bcast_S4x64x64_S4x1x64x64_0_2_3 (extractStridedSlice S4x64x64 ![0, 384, 384] (V (Proc.devRef .tc main_v12_2)) slices_S4x512x512_S4x64x64_0_384_384) := by
  dsimp only [hostOps1, List.take, List.drop]
  simp only [after_cons, after_nil]
  host_results

theorem blockB_7 :
    StableHlo.after ((((hostOps1 (F := Ideal)).take 34).take 33).drop 17) V (Proc.devRef .tc main_v45)
      = broadcastInDim S4x1x64x64 ![0, 2, 3] bcast_S4x64x64_S4x1x64x64_0_2_3 (extractStridedSlice S4x64x64 ![0, 448, 448] (V (Proc.devRef .tc main_v12_2)) slices_S4x512x512_S4x64x64_0_448_448) := by
  dsimp only [hostOps1, List.take, List.drop]
  simp only [after_cons, after_nil]
  host_results

theorem term_v46 :
    StableHlo.after (hostOps1 (F := Ideal)) W (Proc.devRef .tc main_v46)
      = concatenate S4x8x64x64 1 [⟨S4x1x64x64, broadcastInDim S4x1x64x64 ![0, 2, 3] bcast_S4x64x64_S4x1x64x64_0_2_3 (extractStridedSlice S4x64x64 ![0, 0, 0] (W (Proc.devRef .tc main_v12_2)) slices_S4x512x512_S4x64x64_0_0_0)⟩,
        ⟨S4x1x64x64, broadcastInDim S4x1x64x64 ![0, 2, 3] bcast_S4x64x64_S4x1x64x64_0_2_3 (extractStridedSlice S4x64x64 ![0, 64, 64] (W (Proc.devRef .tc main_v12_2)) slices_S4x512x512_S4x64x64_0_64_64)⟩,
        ⟨S4x1x64x64, broadcastInDim S4x1x64x64 ![0, 2, 3] bcast_S4x64x64_S4x1x64x64_0_2_3 (extractStridedSlice S4x64x64 ![0, 128, 128] (W (Proc.devRef .tc main_v12_2)) slices_S4x512x512_S4x64x64_0_128_128)⟩,
        ⟨S4x1x64x64, broadcastInDim S4x1x64x64 ![0, 2, 3] bcast_S4x64x64_S4x1x64x64_0_2_3 (extractStridedSlice S4x64x64 ![0, 192, 192] (W (Proc.devRef .tc main_v12_2)) slices_S4x512x512_S4x64x64_0_192_192)⟩,
        ⟨S4x1x64x64, broadcastInDim S4x1x64x64 ![0, 2, 3] bcast_S4x64x64_S4x1x64x64_0_2_3 (extractStridedSlice S4x64x64 ![0, 256, 256] (W (Proc.devRef .tc main_v12_2)) slices_S4x512x512_S4x64x64_0_256_256)⟩,
        ⟨S4x1x64x64, broadcastInDim S4x1x64x64 ![0, 2, 3] bcast_S4x64x64_S4x1x64x64_0_2_3 (extractStridedSlice S4x64x64 ![0, 320, 320] (W (Proc.devRef .tc main_v12_2)) slices_S4x512x512_S4x64x64_0_320_320)⟩,
        ⟨S4x1x64x64, broadcastInDim S4x1x64x64 ![0, 2, 3] bcast_S4x64x64_S4x1x64x64_0_2_3 (extractStridedSlice S4x64x64 ![0, 384, 384] (W (Proc.devRef .tc main_v12_2)) slices_S4x512x512_S4x64x64_0_384_384)⟩,
        ⟨S4x1x64x64, broadcastInDim S4x1x64x64 ![0, 2, 3] bcast_S4x64x64_S4x1x64x64_0_2_3 (extractStridedSlice S4x64x64 ![0, 448, 448] (W (Proc.devRef .tc main_v12_2)) slices_S4x512x512_S4x64x64_0_448_448)⟩]
        concatenates_S4x1x64x64_S4x1x64x64_S4x1x64x64_S4x1x64x64_S4x1x64x64_S4x1x64x64_S4x1x64x64_S4x1x64x64_S4x8x64x64_d1 := by
  rw [after_take_drop 34, tail_v46, after_take_drop 33 (List.take 34 _), cat_v46,
    after_take_drop 17 (List.take 33 _),
    blockB_0, blockB_1, blockB_2, blockB_3, blockB_4, blockB_5, blockB_6, blockB_7, head_v12_2]

theorem after1_v46 (n : Fin 4) (h : Fin 8) (d e : Fin 64) :
    StableHlo.after (hostOps1 (F := Ideal)) W (Proc.devRef .tc main_v46) (ix4 n h d e)
      = W (Proc.devRef .tc main_v12_2) (ix3 n (Cert.Spec.col h d) (Cert.Spec.col h e)) := by
  rw [term_v46]
  exact stack_apply _ _ _ _ _ _ _ _ _ _ _ n h d e

theorem term_v47 :
    StableHlo.after (hostOps1 (F := Ideal)) W (Proc.devRef .tc main_v47)
      = shapeCast S4x8x64 (W (Proc.devRef .tc main_v12_1)) shapeCasts_S4x1x512_S4x8x64 := by
  dsimp only [hostOps1]
  simp only [after_cons, after_nil]
  host_results
  rfl

theorem term_v48 :
    StableHlo.after (hostOps1 (F := Ideal)) W (Proc.devRef .tc main_v48)
      = shapeCast S4x8x64 (W (Proc.devRef .tc main_v12_3)) shapeCasts_S4x1x512_S4x8x64 := by
  dsimp only [hostOps1]
  simp only [after_cons, after_nil]
  host_results
  rfl

theorem after1_v47 (n : Fin 4) (h : Fin 8) (d : Fin 64) :
    StableHlo.after (hostOps1 (F := Ideal)) W (Proc.devRef .tc main_v47) (ix3 n h d)
      = W (Proc.devRef .tc main_v12_1) (ix3 n 0 (Cert.Spec.col h d)) := by
  rw [term_v47]
  exact recast_apply _ _ n h d

theorem after1_v48 (n : Fin 4) (h : Fin 8) (d : Fin 64) :
    StableHlo.after (hostOps1 (F := Ideal)) W (Proc.devRef .tc main_v48) (ix3 n h d)
      = W (Proc.devRef .tc main_v12_3) (ix3 n 0 (Cert.Spec.col h d)) := by
  rw [term_v48]
  exact recast_apply _ _ n h d
end Second

end Cert.KernelIdeal.HostVal
-- ==== Proof.BlockSpec.lean ====
import proofs.«425839_j19628000543020_3_alg».proof.Proof.SpecLemmas

noncomputable section

namespace Cert.Spec

open Idealize.ShloMosaic

abbrev Tile := Fin 1024 → Fin 512 → EReal

def linT (X : Tile) (WT : Fin 512 → Fin 512 → EReal) (b : Bias) : Tile := fun r o => (∑ e : Fin 512, X r e * WT e o) + b o

def softT (Y : Tile) : Tile := fun r j => smax (fun d' => Y r (col ⟨j.val / 64, by omega⟩ d')) ⟨j.val % 64, by omega⟩

def kvTile (K Vv : Tile) (i j : Fin 512) : EReal := ∑ r : Fin 1024, K r i * Vv r j
def ksumTile (K : Tile) (j : Fin 512) : EReal := ∑ r : Fin 1024, K r j

def attT (Q : Tile) (ks : Fin 8 → Fin 64 → EReal) (kvs : Fin 8 → Fin 64 → Fin 64 → EReal) : Tile := fun r j =>
  Ideal.div one (∑ d : Fin 64, Q r (col ⟨j.val / 64, by omega⟩ d) * ks ⟨j.val / 64, by omega⟩ d)
    * ∑ d : Fin 64, Q r (col ⟨j.val / 64, by omega⟩ d) * kvs ⟨j.val / 64, by omega⟩ d ⟨j.val % 64, by omega⟩

def outT (X : Tile) (WqT : Fin 512 → Fin 512 → EReal) (bq : Bias) (ks0 : Fin 8 → Fin 64 → EReal) (kvs0 : Fin 8 → Fin 64 → Fin 64 → EReal)
    (ks1 : Fin 8 → Fin 64 → EReal) (kvs1 : Fin 8 → Fin 64 → Fin 64 → EReal) (WoT : Fin 512 → Fin 512 → EReal) (bo : Bias) : Tile :=
  let Q := softT (linT X WqT bq)
  linT (fun r j => Q r j + half * (attT Q ks0 kvs0 r j + attT Q ks1 kvs1 r j)) WoT bo

abbrev tile3 (x : (⟨3, ![1, 1024, 512]⟩ : Shape).Idx → EReal) : Tile := fun r e => x (ValueIdx.ix3 0 r e)
abbrev mat2 (x : (⟨2, ![512, 512]⟩ : Shape).Idx → EReal) : Fin 512 → Fin 512 → EReal := fun a b => x (ValueIdx.ix2 a b)
abbrev ksB (x : (⟨3, ![1, 8, 64]⟩ : Shape).Idx → EReal) : Fin 8 → Fin 64 → EReal := fun h d => x (ValueIdx.ix3 0 h d)
abbrev kvB (x : (⟨4, ![1, 8, 64, 64]⟩ : Shape).Idx → EReal) : Fin 8 → Fin 64 → Fin 64 → EReal := fun h d e => x (ValueIdx.ix4 0 h d e)

end Cert.Spec

end
-- ==== Proof.KI.Val0Pt.lean ====
import proofs.«425839_j19628000543020_3_alg».proof.Proof.KI.R0
import proofs.«425839_j19628000543020_3_alg».proof.Proof.BlockSpec
import Idealize.ShloMosaic.Lib.ValueLayout
import Idealize.ShloMosaic.PureOps.Ideal.Laws

set_option maxRecDepth 16384

noncomputable section

namespace Cert.KernelIdeal.Val0.B

open Cert.KernelIdeal Cert.KernelIdeal.Gen Cert.Spec
open Idealize.ShloMosaic Idealize.ShloMosaic.TcCoe Idealize.ShloMosaic.ValueIdx

theorem lhsP_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhsP_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhsP_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhsP_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The projection product at an index is the sum over the contracted axis. -/
theorem matmulP_apply (L : FVec Ideal S1024x512 .bf16) (R : FVec Ideal S512x512 .bf16) (r : Fin 1024) (o : Fin 512) :
    matmul dot_S1024x512_S512x512_S1024x512_1_0_0_1_n_n none L R (constant (F := Ideal) S1024x512 .f32 0x00000000#32) (ix2 r o)
      = ∑ e : Fin 512, L (ix2 r e) * R (ix2 e o) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r o) ((contrEquiv1 dot_S1024x512_S512x512_S1024x512_1_0_0_1_n_n 512 rfl rfl).symm k) = ix2 r k := funext fun a => Fin.ext (by
    match a with
    | ⟨0, _⟩ => exact lhsP_0 _ _
    | ⟨1, _⟩ => exact (lhsP_1 _ _).trans hk)
  have er : dot_S1024x512_S512x512_S1024x512_1_0_0_1_n_n.rhsIdx (ix2 r o) ((contrEquiv1 dot_S1024x512_S512x512_S1024x512_1_0_0_1_n_n 512 rfl rfl).symm k) = ix2 k o := funext fun a => Fin.ext (by
    match a with
    | ⟨0, _⟩ => exact (rhsP_0 _ _).trans hk
    | ⟨1, _⟩ => exact rhsP_1 _ _)
  rw [el, er]

theorem lhsO_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhsO_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhsO_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhsO_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The product over the tile's rows at an index is the sum over those rows. -/
theorem matmulO_apply (L : FVec Ideal S512x1024 .bf16) (R : FVec Ideal S1024x512 .bf16) (a b : Fin 512) :
    matmul dot_S512x1024_S1024x512_S512x512_1_0_0_1_n_n none L R (constant (F := Ideal) S512x512 .f32 0x00000000#32) (ix2 a b)
      = ∑ r : Fin 1024, L (ix2 a r) * R (ix2 r b) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 a b) ((contrEquiv1 dot_S512x1024_S1024x512_S512x512_1_0_0_1_n_n 1024 rfl rfl).symm k) = ix2 a k := funext fun x => Fin.ext (by
    match x with
    | ⟨0, _⟩ => exact lhsO_0 _ _
    | ⟨1, _⟩ => exact (lhsO_1 _ _).trans hk)
  have er : dot_S512x1024_S1024x512_S512x512_1_0_0_1_n_n.rhsIdx (ix2 a b) ((contrEquiv1 dot_S512x1024_S1024x512_S512x512_1_0_0_1_n_n 1024 rfl rfl).symm k) = ix2 k b := funext fun x => Fin.ext (by
    match x with
    | ⟨0, _⟩ => exact (rhsO_0 _ _).trans hk
    | ⟨1, _⟩ => exact rhsO_1 _ _)
  rw [el, er]

theorem pay21_apply (x : Vec Ideal S1x1024x512 .f32) (W : Vec Ideal S512x512 .bf16) (b : Vec Ideal S512 .f32) (r : Fin 1024) (o : Fin 512) :
    k0_pay21 x W b (ix2 r o) = linT (tile3 x) (mat2 W) (bias b) r o := by
  have hm := matmulP_apply (truncf .bf16 (shapeCast S1024x512 x shapeCasts_S1x1024x512_S1024x512) bitsLt_bf16_f32) (shapeCast S512x512 W shapeCasts_S512x512_S512x512) r o
  have hb : broadcastTo S1024x512 (shapeCast S1x512 b shapeCasts_S512_S1x512) broadcasts_S1x512_S1024x512 (ix2 r o) = b (ix1 o) :=
    (broadcastTo_1b_ab_apply _ _ r o).trans (shapeCast_a_1a_apply b _ 0 o)
  unfold k0_pay21 k0_pay20 linT
  refine (congrArg₂ (· + ·) hm hb).trans ?_
  refine congrArg (· + b (ix1 o)) (Finset.sum_congr rfl fun e _ => ?_)
  refine congrArg₂ (· * ·) ?_ ?_
  · exact shapeCast_1ab_ab_apply x _ r e
  · exact congrFun (shapeCast_self W _) (ix2 e o)

theorem pay22_apply (x : Vec Ideal S1x1024x512 .f32) (W : Vec Ideal S512x512 .bf16) (b : Vec Ideal S512 .f32) (r : Fin 1024) (o : Fin 512) :
    k0_pay22 x W b (ix2 r o) = linT (tile3 x) (mat2 W) (bias b) r o := by
  have hm := matmulP_apply (truncf .bf16 (shapeCast S1024x512 x shapeCasts_S1x1024x512_S1024x512) bitsLt_bf16_f32) (shapeCast S512x512 W shapeCasts_S512x512_S512x512) r o
  have hb : broadcastTo S1024x512 (shapeCast S1x512 b shapeCasts_S512_S1x512) broadcasts_S1x512_S1024x512 (ix2 r o) = b (ix1 o) :=
    (broadcastTo_1b_ab_apply _ _ r o).trans (shapeCast_a_1a_apply b _ 0 o)
  unfold k0_pay22 k0_pay20 linT
  refine (congrArg₂ (· + ·) hm hb).trans ?_
  refine congrArg (· + b (ix1 o)) (Finset.sum_congr rfl fun e _ => ?_)
  refine congrArg₂ (· * ·) ?_ ?_
  · exact shapeCast_1ab_ab_apply x _ r e
  · exact congrFun (shapeCast_self W _) (ix2 e o)

section
variable {F : FTy → Type} [FloatOps F]

/-- A head's row maximum over its 64 lanes. -/
def headMax (v : FVec F S1024x64 .f32) : FVec F S1024 .f32 :=
  maximumf (broadcast S1024 (Scalar.ofBits .f32 0xFF800000#32))
    (multiReduction .maximumf [1] S1024 v 0xFF800000#32 reduces_S1024x64_S1024 (.inl rfl) rfl)

/-- A head's lanes shifted by `m`, exponentiated and divided by their row sum. -/
def headSoft (v : FVec F S1024x64 .f32) (m : FVec F S1024 .f32) : FVec F S1024x64 .f32 :=
  divf (exp (subf v (broadcastTo S1024x64 (shapeCast S1024x1 m shapeCasts_S1024_S1024x1) broadcasts_S1024x1_S1024x64)))
    (broadcastTo S1024x64 (shapeCast S1024x1
      (multiReduction .add [1] S1024 (exp (subf v (broadcastTo S1024x64 (shapeCast S1024x1 m shapeCasts_S1024_S1024x1) broadcasts_S1024x1_S1024x64))) 0x00000000#32 reduces_S1024x64_S1024 (.inl rfl) rfl)
      shapeCasts_S1024_S1024x1) broadcasts_S1024x1_S1024x64)

theorem pay23_eq (x : Vec F S1x1024x512 .f32) (W : Vec F S512x512 .bf16) (b : Vec F S512 .f32) :
    k0_pay23 x W b = headSoft (extractStridedSlice S1024x64 ![0, 0] (k0_pay21 x W b) slices_S1024x512_o0_0_S1024x64)
      (headMax (extractStridedSlice S1024x64 ![0, 0] (k0_pay21 x W b) slices_S1024x512_o0_0_S1024x64)) := rfl
theorem pay24_eq (x : Vec F S1x1024x512 .f32) (W : Vec F S512x512 .bf16) (b : Vec F S512 .f32) :
    k0_pay24 x W b = extractStridedSlice S1024x64 ![0, 64] (k0_pay21 x W b) slices_S1024x512_o0_64_S1024x64 := rfl
theorem pay25_eq (x : Vec F S1x1024x512 .f32) (W : Vec F S512x512 .bf16) (b : Vec F S512 .f32) :
    k0_pay25 x W b = headMax (k0_pay24 x W b) := rfl
theorem pay26_eq (v : FVec F S1024x64 .f32) (m : FVec F S1024 .f32) : k0_pay26 v m = headSoft v m := rfl
theorem pay27_eq (Y : FVec F S1024x512 .f32) :
    k0_pay27 Y = headSoft (extractStridedSlice S1024x64 ![0, 128] Y slices_S1024x512_o0_128_S1024x64)
      (headMax (extractStridedSlice S1024x64 ![0, 128] Y slices_S1024x512_o0_128_S1024x64)) := rfl
theorem pay28_eq (Y : FVec F S1024x512 .f32) :
    k0_pay28 Y = headSoft (extractStridedSlice S1024x64 ![0, 192] Y slices_S1024x512_o0_192_S1024x64)
      (headMax (extractStridedSlice S1024x64 ![0, 192] Y slices_S1024x512_o0_192_S1024x64)) := rfl
theorem pay29_eq (Y : FVec F S1024x512 .f32) :
    k0_pay29 Y = headSoft (extractStridedSlice S1024x64 ![0, 256] Y slices_S1024x512_o0_256_S1024x64)
      (headMax (extractStridedSlice S1024x64 ![0, 256] Y slices_S1024x512_o0_256_S1024x64)) := rfl
theorem pay30_eq (Y : FVec F S1024x512 .f32) :
    k0_pay30 Y = extractStridedSlice S1024x64 ![0, 320] Y slices_S1024x512_o0_320_S1024x64 := rfl
theorem pay31_eq (Y : FVec F S1024x512 .f32) : k0_pay31 Y = headMax (k0_pay30 Y) := rfl

end

theorem lift_lane (r : Fin 1024) (k : Fin 64) : reduces_S1024x64_S1024.lift (ix1 r) k = ix2 r k :=
  funext fun c => Fin.ext (by match c with | ⟨0, _⟩ => rfl | ⟨1, _⟩ => rfl)

theorem lift_row (j : Fin 512) (r : Fin 1024) : reduces_S1024x512_S512.lift (ix1 j) r = ix2 r j :=
  funext fun c => Fin.ext (by match c with | ⟨0, _⟩ => rfl | ⟨1, _⟩ => rfl)

theorem colBroadcast_apply {α : Type} (m : S1024.Idx → α) (r : Fin 1024) (d : Fin 64) :
    broadcastTo S1024x64 (shapeCast S1024x1 m shapeCasts_S1024_S1024x1) broadcasts_S1024x1_S1024x64 (ix2 r d) = m (ix1 r) := by
  refine (broadcastTo_apply _ _ (ix2 r d) (ix2 r (0 : Fin 1)) fun ax => ?_).trans ?_
  · match ax with
    | ⟨0, _⟩ => rfl
    | ⟨1, _⟩ => rfl
  · exact shapeCast_apply m _ _ _ (by
      rw [Shape.rowMajor_val_one, Shape.rowMajor_val_two]
      show r.val = r.val * 1 + 0
      omega)

theorem headMax_apply (v : FVec Ideal S1024x64 .f32) (r : Fin 1024) :
    headMax v (ix1 r) = lmax (fun d => v (ix2 r d)) := by
  unfold headMax lmax
  refine congrArg₂ max ofBits_neg_inf ?_
  refine (Ideal.multiReduction_maximumf_single v 0xFF800000#32 reduces_S1024x64_S1024 _ _ (ix1 r)).trans ?_
  refine congrArg₂ (fun (b : EReal) (f : Fin 64 → EReal) => (Finset.univ : Finset (Fin 64)).fold max b f) ofBits_neg_inf ?_
  exact funext fun k => congrArg v (lift_lane r k)

theorem headSoft_apply (v : FVec Ideal S1024x64 .f32) (m : FVec Ideal S1024 .f32) (r : Fin 1024) (d : Fin 64) :
    headSoft v m (ix2 r d) = Ideal.div (Ideal.exp (v (ix2 r d) - m (ix1 r))) (∑ d' : Fin 64, Ideal.exp (v (ix2 r d') - m (ix1 r))) := by
  have hb : ∀ d' : Fin 64, broadcastTo S1024x64 (shapeCast S1024x1 m shapeCasts_S1024_S1024x1) broadcasts_S1024x1_S1024x64 (ix2 r d') = m (ix1 r) :=
    fun d' => colBroadcast_apply m r d'
  unfold headSoft
  refine congrArg₂ Ideal.div ?_ ?_
  · exact congrArg Ideal.exp (congrArg (v (ix2 r d) - ·) (hb d))
  · refine (colBroadcast_apply _ r d).trans ?_
    refine (Ideal.multiReduction_add_single _ 0x00000000#32 reduces_S1024x64_S1024 _ _ (ix1 r)).trans ?_
    refine Finset.sum_congr rfl fun d' _ => ?_
    refine (congrArg _ (lift_lane r d')).trans ?_
    exact congrArg Ideal.exp (congrArg (v (ix2 r d') - ·) (hb d'))

theorem headSoft_headMax_apply (v : FVec Ideal S1024x64 .f32) (r : Fin 1024) (d : Fin 64) :
    headSoft v (headMax v) (ix2 r d) = smax (fun d' => v (ix2 r d')) d := by
  rw [headSoft_apply, headMax_apply]
  rfl

section
variable {F : FTy → Type} [FloatOps F]

def headOf (Y : FVec F S1024x512 .f32) (off : ℕ) (hs : S1024x512.Slices ![0, off] S1024x64) : FVec F S1024x64 .f32 :=
  headSoft (extractStridedSlice S1024x64 ![0, off] Y hs) (headMax (extractStridedSlice S1024x64 ![0, off] Y hs))

/-- The eight heads' softmaxes side by side. -/
def keyTile (Y : FVec F S1024x512 .f32) : FVec F S1024x512 .f32 :=
  concatenate S1024x512 1 [⟨S1024x64, headOf Y 0 slices_S1024x512_o0_0_S1024x64⟩, ⟨S1024x64, headOf Y 64 slices_S1024x512_o0_64_S1024x64⟩, ⟨S1024x64, headOf Y 128 slices_S1024x512_o0_128_S1024x64⟩, ⟨S1024x64, headOf Y 192 slices_S1024x512_o0_192_S1024x64⟩, ⟨S1024x64, headOf Y 256 slices_S1024x512_o0_256_S1024x64⟩, ⟨S1024x64, headOf Y 320 slices_S1024x512_o0_320_S1024x64⟩, ⟨S1024x64, headOf Y 384 slices_S1024x512_o0_384_S1024x64⟩, ⟨S1024x64, headOf Y 448 slices_S1024x512_o0_448_S1024x64⟩] concatenates_S1024x64_S1024x64_S1024x64_S1024x64_S1024x64_S1024x64_S1024x64_S1024x64_S1024x512_d1

theorem pay32_eq (x : Vec F S1x1024x512 .f32) (W : Vec F S512x512 .bf16) (b : Vec F S512 .f32) :
    k0_pay32 (k0_pay21 x W b) (k0_pay23 x W b) (k0_pay26 (k0_pay24 x W b) (k0_pay25 x W b)) (k0_pay27 (k0_pay21 x W b))
        (k0_pay28 (k0_pay21 x W b)) (k0_pay29 (k0_pay21 x W b)) (k0_pay30 (k0_pay21 x W b)) (k0_pay31 (k0_pay21 x W b))
      = keyTile (k0_pay21 x W b) := rfl

/-- What was held plus keysᵀ · values of the tile. -/
def accKV (K V : FVec F S1024x512 .f32) (acc : Vec F S1x512x512 .f32) : FVec F S1x512x512 .f32 :=
  shapeCast S1x512x512
    (addf (shapeCast S512x512 acc shapeCasts_S1x512x512_S512x512)
      (matmul dot_S512x1024_S1024x512_S512x512_1_0_0_1_n_n none
        (transpose S512x1024 [1, 0] (truncf .bf16 K bitsLt_bf16_f32) transposes_S1024x512_p1_0_S512x1024)
        (truncf .bf16 V bitsLt_bf16_f32) (constant S512x512 .f32 0x00000000#32)))
    shapeCasts_S512x512_S1x512x512

/-- What was held plus the column sums of the tile's keys. -/
def accKS (K : FVec F S1024x512 .f32) (acc : Vec F S1x1x512 .f32) : FVec F S1x1x512 .f32 :=
  shapeCast S1x1x512
    (addf (shapeCast S1x512 acc shapeCasts_S1x1x512_S1x512)
      (shapeCast S1x512 (multiReduction .add [0] S512 K 0x00000000#32 reduces_S1024x512_S512 (.inl rfl) rfl) shapeCasts_S512_S1x512))
    shapeCasts_S1x512_S1x1x512

theorem pay34_eq (v146 v151 : FVec F S1024x512 .f32) (v163 v175 v187 v199 v211 v212 : FVec F S1024x64 .f32) (v215 : FVec F S1024 .f32) (v255 : Vec F S1x512x512 .f32) :
    k0_pay34 v146 v151 v163 v175 v187 v199 v211 v212 v215 v255 = accKV (k0_pay32 v146 v163 v175 v187 v199 v211 v212 v215) v151 v255 := rfl

theorem pay1_pay33_eq (v146 : FVec F S1024x512 .f32) (v163 v175 v187 v199 v211 v212 : FVec F S1024x64 .f32) (v215 : FVec F S1024 .f32) (v261 : Vec F S1x1x512 .f32) :
    k0_pay1 (k0_pay33 v146 v163 v175 v187 v199 v211 v212 v215) v261 = accKS (k0_pay32 v146 v163 v175 v187 v199 v211 v212 v215) v261 := rfl

end

theorem headOf_apply (Y : FVec Ideal S1024x512 .f32) (off : ℕ) (hs : S1024x512.Slices ![0, off] S1024x64) (h : Fin 8) (hoff : off = 64 * h.val)
    (r : Fin 1024) (d : Fin 64) :
    headOf Y off hs (ix2 r d) = smax (fun d' => Y (ix2 r (col h d'))) d := by
  subst hoff
  unfold headOf
  refine (headSoft_headMax_apply _ r d).trans ?_
  refine congrArg (fun z => smax z d) (funext fun d' => ?_)
  exact slice2_axis1_apply (64 * h.val) Y hs r d' (col h d') rfl

theorem hsl (n : Fin 8) : S1024x512.Slices ![0, 64 * n.val] S1024x64 := by revert n; decide

theorem keyTile_apply (Y : FVec Ideal S1024x512 .f32) (r : Fin 1024) (j : Fin 512) :
    keyTile Y (ix2 r j) = softT (fun r o => Y (ix2 r o)) r j := by
  unfold keyTile
  refine (concatenate_ofFn_apply (1 : Fin S1024x512.rank) (fun n : Fin 8 => headOf Y (64 * n.val) (hsl n)) _ rfl 64 rfl (ix2 r j)
    ⟨j.val / 64, by omega⟩ rfl (ix2 r ⟨j.val % 64, by omega⟩) rfl fun b hb => ?_).trans ?_
  · match b with
    | ⟨0, _⟩ => rfl
    | ⟨1, _⟩ => exact absurd rfl hb
  · exact headOf_apply Y _ _ ⟨j.val / 64, by omega⟩ rfl r ⟨j.val % 64, by omega⟩

theorem accKV_apply (K V : FVec Ideal S1024x512 .f32) (acc : Vec Ideal S1x512x512 .f32) (a b : Fin 512) :
    accKV K V acc (ix3 0 a b) = acc (ix3 0 a b) + ∑ r : Fin 1024, K (ix2 r a) * V (ix2 r b) := by
  unfold accKV
  refine (shapeCast_ab_1ab_apply _ _ 0 a b).trans ?_
  refine congrArg₂ (· + ·) (shapeCast_1ab_ab_apply acc _ a b) ?_
  refine (matmulO_apply _ _ a b).trans ?_
  refine Finset.sum_congr rfl fun r _ => congrArg (· * V (ix2 r b)) ?_
  exact transpose_ix2_apply _ _ a r

theorem accKS_apply (K : FVec Ideal S1024x512 .f32) (acc : Vec Ideal S1x1x512 .f32) (j : Fin 512) :
    accKS K acc (ix3 0 0 j) = acc (ix3 0 0 j) + ∑ r : Fin 1024, K (ix2 r j) := by
  unfold accKS
  refine (shapeCast_ab_1ab_apply _ _ 0 0 j).trans ?_
  refine congrArg₂ (· + ·) (shapeCast_1ab_ab_apply acc _ 0 j) ?_
  refine (shapeCast_a_1a_apply _ _ 0 j).trans ?_
  refine (Ideal.multiReduction_add_single K 0x00000000#32 reduces_S1024x512_S512 _ _ (ix1 j)).trans ?_
  exact Finset.sum_congr rfl fun r _ => congrArg K (lift_row j r)

theorem pay4_apply (y : S1x512x512.Idx) : k0_pay4 (F := Ideal) y = 0 := Ideal.ofBits_zero_f32
theorem pay5_apply (y : S1x1x512.Idx) : k0_pay5 (F := Ideal) y = 0 := Ideal.ofBits_zero_f32

open Cert.KernelIdeal.Hand Idealize.ShloMosaic.Tactic

theorem hz3 : (![0, 0, 0] : Fin 3 → Nat) = fun _ => 0 := by
  funext a; match a with | ⟨0, _⟩ => rfl | ⟨1, _⟩ => rfl | ⟨2, _⟩ => rfl
theorem hz2 : (![0, 0] : Fin 2 → Nat) = fun _ => 0 := by
  funext a; match a with | ⟨0, _⟩ => rfl | ⟨1, _⟩ => rfl
theorem hz1 : (![0] : Fin 1 → Nat) = fun _ => 0 := by
  funext a; match a with | ⟨0, _⟩ => rfl

section
variable {F : FTy → Type} [FloatOps F]

section
variable (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S512x512 .bf16) (harg10 : arg10.IsWhole) (arg11 : Memref sig .tc .vmem S512 .f32) (harg11 : arg11.IsWhole) (arg12 : Memref sig .tc .vmem S1x512x512 .f32) (harg12 : arg12.IsWhole) (arg13 : Memref sig .tc .vmem S1x1x512 .f32) (harg13 : arg13.IsWhole) (arg14 : Memref sig .tc .vmem S1x512x512 .f32) (harg14 : arg14.IsWhole) (arg15 : Memref sig .tc .vmem S1x1x512 .f32) (harg15 : arg15.IsWhole)

section
variable (hc0 : cond0_0 i) (x0 : Vec F S1x1024x512 .f32) (x1 : Vec F S1x1024x512 .f32) (x2 : Vec F S512x512 .bf16) (x3 : Vec F S512 .f32) (x4 : Vec F S512x512 .bf16) (x5 : Vec F S512 .f32) (x6 : Vec F S512x512 .bf16) (x7 : Vec F S512 .f32) (x8 : Vec F S512x512 .bf16) (x9 : Vec F S512 .f32)

theorem out0_A_12_eq :
    (outs0 (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).1).2.2.1 = accKV (keyTile (k0_pay21 x1 x6 x7)) (k0_pay22 x1 x8 x9) k0_pay4 := by
  dsimp only [outs0]
  rw [View.read_writes_eq_canon _ _ _ (cover0_A ..).2.2.1]
  unfold kernelRun0_A
  dsimp only
  sl_unfold_words
  rw [View.canon_cons_unit_zero (S := S1x512x512) hz3]
  simp only [View.readAt_eq_ld, harg3.read_unread, harg8.read_unread, harg9.read_unread, harg10.read_unread, harg11.read_unread, View.ld_unit_zero (S := S1x1024x512) hz3, View.ld_unit_zero (S := S512x512) hz2, View.ld_unit_zero (S := S512) hz1, View.readCov_unit_zero (S := S1x512x512) _ hz3]
  exact (pay34_eq _ _ _ _ _ _ _ _ _ _).trans (congrArg (fun K => accKV K (k0_pay22 x1 x8 x9) k0_pay4) (pay32_eq x1 x6 x7))

theorem out0_A_13_eq :
    (outs0 (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).1).2.2.2 = accKS (keyTile (k0_pay21 x1 x6 x7)) k0_pay5 := by
  dsimp only [outs0]
  rw [View.read_writes_eq_canon _ _ _ (cover0_A ..).2.2.2]
  unfold kernelRun0_A
  dsimp only
  sl_unfold_words
  rw [View.canon_cons_unit_zero (S := S1x1x512) hz3]
  simp only [View.readAt_eq_ld, harg3.read_unread, harg8.read_unread, harg9.read_unread, harg10.read_unread, harg11.read_unread, View.ld_unit_zero (S := S1x1024x512) hz3, View.ld_unit_zero (S := S512x512) hz2, View.ld_unit_zero (S := S512) hz1, View.readCov_unit_zero (S := S1x1x512) _ hz3]
  exact (pay1_pay33_eq _ _ _ _ _ _ _ _ _).trans (congrArg (fun K => accKS K k0_pay5) (pay32_eq x1 x6 x7))

theorem out0_A_10_eq :
    (outs0 (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).1).1 = accKV (keyTile (k0_pay21 x0 x2 x3)) (k0_pay22 x0 x4 x5) k0_pay4 := by
  dsimp only [outs0]
  rw [View.read_writes_eq_canon _ _ _ (cover0_A ..).1]
  unfold kernelRun0_A
  dsimp only
  sl_unfold_words
  rw [View.canon_cons_unit_zero (S := S1x512x512) hz3]
  simp only [View.readAt_eq_ld, harg2.read_unread, harg4.read_unread, harg5.read_unread, harg6.read_unread, harg7.read_unread, View.ld_unit_zero (S := S1x1024x512) hz3, View.ld_unit_zero (S := S512x512) hz2, View.ld_unit_zero (S := S512) hz1, View.ld_unit_zero (S := S1x512x512) hz3, View.ld_unit_zero (S := S1x1x512) hz3, View.readCov_unit_zero (S := S1x512x512) _ hz3, View.readCov_unit_zero (S := S1x1x512) _ hz3]
  rfl

theorem out0_A_11_eq :
    (outs0 (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).1).2.1 = accKS (keyTile (k0_pay21 x0 x2 x3)) k0_pay5 := by
  dsimp only [outs0]
  rw [View.read_writes_eq_canon _ _ _ (cover0_A ..).2.1]
  unfold kernelRun0_A
  dsimp only
  sl_unfold_words
  rw [View.canon_cons_unit_zero (S := S1x1x512) hz3]
  simp only [View.readAt_eq_ld, harg2.read_unread, harg4.read_unread, harg5.read_unread, harg6.read_unread, harg7.read_unread, View.ld_unit_zero (S := S1x1024x512) hz3, View.ld_unit_zero (S := S512x512) hz2, View.ld_unit_zero (S := S512) hz1, View.ld_unit_zero (S := S1x512x512) hz3, View.ld_unit_zero (S := S1x1x512) hz3, View.readCov_unit_zero (S := S1x512x512) _ hz3, View.readCov_unit_zero (S := S1x1x512) _ hz3]
  rfl

end

section
variable (hc0 : ¬cond0_0 i) (x0 : Vec F S1x1024x512 .f32) (x1 : Vec F S1x1024x512 .f32) (x2 : Vec F S512x512 .bf16) (x3 : Vec F S512 .f32) (x4 : Vec F S512x512 .bf16) (x5 : Vec F S512 .f32) (x6 : Vec F S512x512 .bf16) (x7 : Vec F S512 .f32) (x8 : Vec F S512x512 .bf16) (x9 : Vec F S512 .f32) (xo10 : Vec F S1x512x512 .f32) (xo11 : Vec F S1x1x512 .f32) (xo12 : Vec F S1x512x512 .f32) (xo13 : Vec F S1x1x512 .f32)

theorem out0_B_12_eq :
    (outs0 (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo10 xo11 xo12 xo13).1).2.2.1 = accKV (keyTile (k0_pay21 x1 x6 x7)) (k0_pay22 x1 x8 x9) xo12 := by
  dsimp only [outs0]
  rw [View.read_writes_eq_canon _ _ _ (cover0_B ..).2.2.1]
  unfold kernelRun0_B
  dsimp only
  sl_unfold_words
  rw [View.canon_unit_zero (S := S1x512x512) hz3]
  simp only [View.readAt_eq_ld, harg3.read_unread, harg8.read_unread, harg9.read_unread, harg10.read_unread, harg11.read_unread, View.ld_unit_zero (S := S1x1024x512) hz3, View.ld_unit_zero (S := S512x512) hz2, View.ld_unit_zero (S := S512) hz1, harg14.read_unread, View.ld_unit_zero (S := S1x512x512) hz3]
  exact (pay34_eq _ _ _ _ _ _ _ _ _ _).trans (congrArg (fun K => accKV K (k0_pay22 x1 x8 x9) xo12) (pay32_eq x1 x6 x7))

theorem out0_B_13_eq :
    (outs0 (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo10 xo11 xo12 xo13).1).2.2.2 = accKS (keyTile (k0_pay21 x1 x6 x7)) xo13 := by
  dsimp only [outs0]
  rw [View.read_writes_eq_canon _ _ _ (cover0_B ..).2.2.2]
  unfold kernelRun0_B
  dsimp only
  sl_unfold_words
  rw [View.canon_unit_zero (S := S1x1x512) hz3]
  simp only [View.readAt_eq_ld, harg3.read_unread, harg8.read_unread, harg9.read_unread, harg10.read_unread, harg11.read_unread, View.ld_unit_zero (S := S1x1024x512) hz3, View.ld_unit_zero (S := S512x512) hz2, View.ld_unit_zero (S := S512) hz1, harg15.read_unread, View.ld_unit_zero (S := S1x1x512) hz3]
  exact (pay1_pay33_eq _ _ _ _ _ _ _ _ _).trans (congrArg (fun K => accKS K xo13) (pay32_eq x1 x6 x7))

theorem out0_B_10_eq :
    (outs0 (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo10 xo11 xo12 xo13).1).1 = accKV (keyTile (k0_pay21 x0 x2 x3)) (k0_pay22 x0 x4 x5) xo10 := by
  dsimp only [outs0]
  rw [View.read_writes_eq_canon _ _ _ (cover0_B ..).1]
  unfold kernelRun0_B
  dsimp only
  sl_unfold_words
  rw [View.canon_unit_zero (S := S1x512x512) hz3]
  simp only [View.readAt_eq_ld, harg2.read_unread, harg4.read_unread, harg5.read_unread, harg6.read_unread, harg7.read_unread, harg12.read_unread, harg13.read_unread, View.ld_unit_zero (S := S1x1024x512) hz3, View.ld_unit_zero (S := S512x512) hz2, View.ld_unit_zero (S := S512) hz1, View.ld_unit_zero (S := S1x512x512) hz3, View.ld_unit_zero (S := S1x1x512) hz3, View.readCov_unit_zero (S := S1x512x512) _ hz3, View.readCov_unit_zero (S := S1x1x512) _ hz3]
  rfl

theorem out0_B_11_eq :
    (outs0 (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo10 xo11 xo12 xo13).1).2.1 = accKS (keyTile (k0_pay21 x0 x2 x3)) xo11 := by
  dsimp only [outs0]
  rw [View.read_writes_eq_canon _ _ _ (cover0_B ..).2.1]
  unfold kernelRun0_B
  dsimp only
  sl_unfold_words
  rw [View.canon_unit_zero (S := S1x1x512) hz3]
  simp only [View.readAt_eq_ld, harg2.read_unread, harg4.read_unread, harg5.read_unread, harg6.read_unread, harg7.read_unread, harg12.read_unread, harg13.read_unread, View.ld_unit_zero (S := S1x1024x512) hz3, View.ld_unit_zero (S := S512x512) hz2, View.ld_unit_zero (S := S512) hz1, View.ld_unit_zero (S := S1x512x512) hz3, View.ld_unit_zero (S := S1x1x512) hz3, View.readCov_unit_zero (S := S1x512x512) _ hz3, View.readCov_unit_zero (S := S1x1x512) _ hz3]
  rfl

end

end

end

theorem keyTile_pay21 (x1 : Vec Ideal S1x1024x512 .f32) (x6 : Vec Ideal S512x512 .bf16) (x7 : Vec Ideal S512 .f32) (r : Fin 1024) (j : Fin 512) :
    keyTile (k0_pay21 x1 x6 x7) (ix2 r j) = softT (linT (tile3 x1) (mat2 x6) (bias x7)) r j :=
  (keyTile_apply _ r j).trans
    (congrArg (fun Y => softT Y r j) (funext fun r' => funext fun o => pay21_apply x1 x6 x7 r' o))

theorem kv_sum (x1 : Vec Ideal S1x1024x512 .f32) (x6 : Vec Ideal S512x512 .bf16) (x7 : Vec Ideal S512 .f32) (x8 : Vec Ideal S512x512 .bf16) (x9 : Vec Ideal S512 .f32) (a b : Fin 512) :
    ∑ r : Fin 1024, keyTile (k0_pay21 x1 x6 x7) (ix2 r a) * k0_pay22 x1 x8 x9 (ix2 r b)
      = kvTile (softT (linT (tile3 x1) (mat2 x6) (bias x7))) (linT (tile3 x1) (mat2 x8) (bias x9)) a b := by
  unfold kvTile
  exact Finset.sum_congr rfl fun r _ => congrArg₂ (· * ·) (keyTile_pay21 x1 x6 x7 r a) (pay22_apply x1 x8 x9 r b)

theorem ks_sum (x1 : Vec Ideal S1x1024x512 .f32) (x6 : Vec Ideal S512x512 .bf16) (x7 : Vec Ideal S512 .f32) (j : Fin 512) :
    ∑ r : Fin 1024, keyTile (k0_pay21 x1 x6 x7) (ix2 r j) = ksumTile (softT (linT (tile3 x1) (mat2 x6) (bias x7))) j := by
  unfold ksumTile
  exact Finset.sum_congr rfl fun r _ => keyTile_pay21 x1 x6 x7 r j

/-- The key–value update in the specification's terms. -/
theorem kvAcc_apply (x : Vec Ideal S1x1024x512 .f32) (Wk : Vec Ideal S512x512 .bf16) (bk : Vec Ideal S512 .f32) (Wv : Vec Ideal S512x512 .bf16) (bv : Vec Ideal S512 .f32)
    (acc : Vec Ideal S1x512x512 .f32) (a b : Fin 512) :
    accKV (keyTile (k0_pay21 x Wk bk)) (k0_pay22 x Wv bv) acc (ix3 0 a b)
      = acc (ix3 0 a b) + kvTile (softT (linT (tile3 x) (mat2 Wk) (bias bk))) (linT (tile3 x) (mat2 Wv) (bias bv)) a b :=
  (accKV_apply _ _ _ a b).trans (congrArg (acc (ix3 0 a b) + ·) (kv_sum x Wk bk Wv bv a b))

/-- The key-sum update in the specification's terms. -/
theorem ksAcc_apply (x : Vec Ideal S1x1024x512 .f32) (Wk : Vec Ideal S512x512 .bf16) (bk : Vec Ideal S512 .f32) (acc : Vec Ideal S1x1x512 .f32) (j : Fin 512) :
    accKS (keyTile (k0_pay21 x Wk bk)) acc (ix3 0 0 j) = acc (ix3 0 0 j) + ksumTile (softT (linT (tile3 x) (mat2 Wk) (bias bk))) j :=
  (accKS_apply _ _ j).trans (congrArg (acc (ix3 0 0 j) + ·) (ks_sum x Wk bk j))

end Cert.KernelIdeal.Val0.B

end
-- ==== Proof.KI.Val0Arr.lean ====
import proofs.«425839_j19628000543020_3_alg».proof.Proof.KI.Val0Pt
import proofs.«425839_j19628000543020_3_alg».proof.Proof.SpecLemmas
import Idealize.ShloMosaic.Lib.Pipeline.Value

set_option maxRecDepth 16384

noncomputable section

namespace Cert.KernelIdeal.Val0

open Cert.KernelIdeal Cert.KernelIdeal.Gen Cert.KernelIdeal.Hand Cert.Spec
open Idealize.ShloMosaic Idealize.ShloMosaic.TcCoe Idealize.ShloMosaic.ValueIdx
open Idealize.ShloMosaic.Pipeline (Dat)

section
variable (V : (c : Dev nD) → (b : Ref sig .tc) → Buf (Elt Ideal) ((c : Thread nD τ).loc b))

abbrev blk0 (c : Dev nD) (t : Fin cfg0.N) : Vec Ideal S1x1024x512 .f32 := iblk0 V c 0 t
abbrev arr0 (c : Dev nD) : Vec Ideal S4x8192x512 .f32 := V c main_arg1
abbrev blk1 (c : Dev nD) (t : Fin cfg0.N) : Vec Ideal S1x1024x512 .f32 := iblk0 V c 1 t
abbrev arr1 (c : Dev nD) : Vec Ideal S4x8192x512 .f32 := V c main_arg2
abbrev blk2 (c : Dev nD) (t : Fin cfg0.N) : Vec Ideal S512x512 .bf16 := iblk0 V c 2 t
abbrev arr2 (c : Dev nD) : Vec Ideal S512x512 .bf16 := V c main_v3
abbrev blk3 (c : Dev nD) (t : Fin cfg0.N) : Vec Ideal S512 .f32 := iblk0 V c 3 t
abbrev arr3 (c : Dev nD) : Vec Ideal S512 .f32 := V c main_arg6
abbrev blk4 (c : Dev nD) (t : Fin cfg0.N) : Vec Ideal S512x512 .bf16 := iblk0 V c 4 t
abbrev arr4 (c : Dev nD) : Vec Ideal S512x512 .bf16 := V c main_v5
abbrev blk5 (c : Dev nD) (t : Fin cfg0.N) : Vec Ideal S512 .f32 := iblk0 V c 5 t
abbrev arr5 (c : Dev nD) : Vec Ideal S512 .f32 := V c main_arg8
abbrev blk6 (c : Dev nD) (t : Fin cfg0.N) : Vec Ideal S512x512 .bf16 := iblk0 V c 6 t
abbrev arr6 (c : Dev nD) : Vec Ideal S512x512 .bf16 := V c main_v7
abbrev blk7 (c : Dev nD) (t : Fin cfg0.N) : Vec Ideal S512 .f32 := iblk0 V c 7 t
abbrev arr7 (c : Dev nD) : Vec Ideal S512 .f32 := V c main_arg10
abbrev blk8 (c : Dev nD) (t : Fin cfg0.N) : Vec Ideal S512x512 .bf16 := iblk0 V c 8 t
abbrev arr8 (c : Dev nD) : Vec Ideal S512x512 .bf16 := V c main_v9
abbrev blk9 (c : Dev nD) (t : Fin cfg0.N) : Vec Ideal S512 .f32 := iblk0 V c 9 t
abbrev arr9 (c : Dev nD) : Vec Ideal S512 .f32 := V c main_arg12

theorem idx_in : ∀ t : Fin cfg0.N, win0_0.index t (0 : Fin 3) = t.val / 8
    ∧ win0_0.index t (1 : Fin 3) = t.val % 8
    ∧ win0_0.index t (2 : Fin 3) = 0
    ∧ win0_1.index t (0 : Fin 3) = t.val / 8
    ∧ win0_1.index t (1 : Fin 3) = t.val % 8
    ∧ win0_1.index t (2 : Fin 3) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 1) = 0 :=
  (by decide +kernel : ∀ t : Fin grid0.N, _)

theorem blk0_apply (c : Dev nD) (t : Fin cfg0.N) (r : Fin 1024) (e : Fin 512) (n : Fin 4) (l : Fin 8192)
    (hn : n.val = t.val / 8) (hl : l.val = 1024 * (t.val % 8) + r.val) :
    tile3 (blk0 V c t) r e = act (arr0 V c) n l e := by
  have hi := idx_in t
  unfold blk0 iblk0
  show View.read _ _ _ (ix3 0 r e) = _
  rw [View.read_apply]
  show V c main_arg1 _ = V c main_arg1 _
  congr 1
  funext a
  apply Fin.ext
  match a with
  | ⟨0, _⟩ => show win0_0.index t 0 * 1 + 1 * 0 = n.val; rw [hi.1, hn]; omega
  | ⟨1, _⟩ => show win0_0.index t 1 * 1024 + 1 * r.val = l.val; rw [hi.2.1, hl]; omega
  | ⟨2, _⟩ => show win0_0.index t 2 * 512 + 1 * e.val = e.val; rw [hi.2.2.1]; omega

theorem blk1_apply (c : Dev nD) (t : Fin cfg0.N) (r : Fin 1024) (e : Fin 512) (n : Fin 4) (l : Fin 8192)
    (hn : n.val = t.val / 8) (hl : l.val = 1024 * (t.val % 8) + r.val) :
    tile3 (blk1 V c t) r e = act (arr1 V c) n l e := by
  have hi := idx_in t
  unfold blk1 iblk0
  show View.read _ _ _ (ix3 0 r e) = _
  rw [View.read_apply]
  show V c main_arg2 _ = V c main_arg2 _
  congr 1
  funext a
  apply Fin.ext
  match a with
  | ⟨0, _⟩ => show win0_1.index t 0 * 1 + 1 * 0 = n.val; rw [hi.2.2.2.1, hn]; omega
  | ⟨1, _⟩ => show win0_1.index t 1 * 1024 + 1 * r.val = l.val; rw [hi.2.2.2.2.1, hl]; omega
  | ⟨2, _⟩ => show win0_1.index t 2 * 512 + 1 * e.val = e.val; rw [hi.2.2.2.2.2.1]; omega

theorem blk2_apply (c : Dev nD) (t : Fin cfg0.N) (a b : Fin 512) :
    mat2 (blk2 V c t) a b = matT (arr2 V c) b a := by
  have hi := idx_in t
  unfold blk2 iblk0
  show View.read _ _ _ (ix2 a b) = _
  rw [View.read_apply]
  show V c main_v3 _ = V c main_v3 _
  congr 1
  funext d
  apply Fin.ext
  match d with
  | ⟨0, _⟩ => show win0_2.index t 0 * 512 + 1 * a.val = a.val; rw [hi.2.2.2.2.2.2.1]; omega
  | ⟨1, _⟩ => show win0_2.index t 1 * 512 + 1 * b.val = b.val; rw [hi.2.2.2.2.2.2.2.1]; omega

theorem blk3_apply (c : Dev nD) (t : Fin cfg0.N) (o : Fin 512) :
    bias (blk3 V c t) o = bias (arr3 V c) o := by
  have hi := idx_in t
  unfold blk3 iblk0
  show View.read _ _ _ (ix1 o) = _
  rw [View.read_apply]
  show V c main_arg6 _ = V c main_arg6 _
  congr 1
  funext d
  apply Fin.ext
  match d with
  | ⟨0, _⟩ => show win0_3.index t 0 * 512 + 1 * o.val = o.val; rw [hi.2.2.2.2.2.2.2.2.1]; omega

theorem blk4_apply (c : Dev nD) (t : Fin cfg0.N) (a b : Fin 512) :
    mat2 (blk4 V c t) a b = matT (arr4 V c) b a := by
  have hi := idx_in t
  unfold blk4 iblk0
  show View.read _ _ _ (ix2 a b) = _
  rw [View.read_apply]
  show V c main_v5 _ = V c main_v5 _
  congr 1
  funext d
  apply Fin.ext
  match d with
  | ⟨0, _⟩ => show win0_4.index t 0 * 512 + 1 * a.val = a.val; rw [hi.2.2.2.2.2.2.2.2.2.1]; omega
  | ⟨1, _⟩ => show win0_4.index t 1 * 512 + 1 * b.val = b.val; rw [hi.2.2.2.2.2.2.2.2.2.2.1]; omega

theorem blk5_apply (c : Dev nD) (t : Fin cfg0.N) (o : Fin 512) :
    bias (blk5 V c t) o = bias (arr5 V c) o := by
  have hi := idx_in t
  unfold blk5 iblk0
  show View.read _ _ _ (ix1 o) = _
  rw [View.read_apply]
  show V c main_arg8 _ = V c main_arg8 _
  congr 1
  funext d
  apply Fin.ext
  match d with
  | ⟨0, _⟩ => show win0_5.index t 0 * 512 + 1 * o.val = o.val; rw [hi.2.2.2.2.2.2.2.2.2.2.2.1]; omega

theorem blk6_apply (c : Dev nD) (t : Fin cfg0.N) (a b : Fin 512) :
    mat2 (blk6 V c t) a b = matT (arr6 V c) b a := by
  have hi := idx_in t
  unfold blk6 iblk0
  show View.read _ _ _ (ix2 a b) = _
  rw [View.read_apply]
  show V c main_v7 _ = V c main_v7 _
  congr 1
  funext d
  apply Fin.ext
  match d with
  | ⟨0, _⟩ => show win0_6.index t 0 * 512 + 1 * a.val = a.val; rw [hi.2.2.2.2.2.2.2.2.2.2.2.2.1]; omega
  | ⟨1, _⟩ => show win0_6.index t 1 * 512 + 1 * b.val = b.val; rw [hi.2.2.2.2.2.2.2.2.2.2.2.2.2.1]; omega

theorem blk7_apply (c : Dev nD) (t : Fin cfg0.N) (o : Fin 512) :
    bias (blk7 V c t) o = bias (arr7 V c) o := by
  have hi := idx_in t
  unfold blk7 iblk0
  show View.read _ _ _ (ix1 o) = _
  rw [View.read_apply]
  show V c main_arg10 _ = V c main_arg10 _
  congr 1
  funext d
  apply Fin.ext
  match d with
  | ⟨0, _⟩ => show win0_7.index t 0 * 512 + 1 * o.val = o.val; rw [hi.2.2.2.2.2.2.2.2.2.2.2.2.2.2.1]; omega

theorem blk8_apply (c : Dev nD) (t : Fin cfg0.N) (a b : Fin 512) :
    mat2 (blk8 V c t) a b = matT (arr8 V c) b a := by
  have hi := idx_in t
  unfold blk8 iblk0
  show View.read _ _ _ (ix2 a b) = _
  rw [View.read_apply]
  show V c main_v9 _ = V c main_v9 _
  congr 1
  funext d
  apply Fin.ext
  match d with
  | ⟨0, _⟩ => show win0_8.index t 0 * 512 + 1 * a.val = a.val; rw [hi.2.2.2.2.2.2.2.2.2.2.2.2.2.2.2.1]; omega
  | ⟨1, _⟩ => show win0_8.index t 1 * 512 + 1 * b.val = b.val; rw [hi.2.2.2.2.2.2.2.2.2.2.2.2.2.2.2.2.1]; omega

theorem blk9_apply (c : Dev nD) (t : Fin cfg0.N) (o : Fin 512) :
    bias (blk9 V c t) o = bias (arr9 V c) o := by
  have hi := idx_in t
  unfold blk9 iblk0
  show View.read _ _ _ (ix1 o) = _
  rw [View.read_apply]
  show V c main_arg12 _ = V c main_arg12 _
  congr 1
  funext d
  apply Fin.ext
  match d with
  | ⟨0, _⟩ => show win0_9.index t 0 * 512 + 1 * o.val = o.val; rw [hi.2.2.2.2.2.2.2.2.2.2.2.2.2.2.2.2.2]; omega

theorem tileAcc_first {M : Type*} [AddCommMonoid M] (s : ℕ → M) : tileAcc s 0 = s 0 := by rw [tileAcc, zero_add]
theorem tileAcc_next {M : Type*} [AddCommMonoid M] (s : ℕ → M) (k : ℕ) : tileAcc s (k + 1) = tileAcc s k + s (k + 1) := by
  rw [tileAcc]

section Tile
variable {n : Fin 4} {k : ℕ} {x : Tile} {X : Act} {w w' : Fin 512 → Fin 512 → EReal} {W W' : Mat} {b b' B B' : Bias}

/-- A tile's affine layer is the whole array's on the tile's rows. -/
theorem lin_tile (hx : ∀ r e (l : Fin 8192), l.val = 1024 * k + r.val → x r e = X n l e) (hw : ∀ e o, w e o = W o e)
    (hb : ∀ o, b o = B o) (r : Fin 1024) (o : Fin 512) (l : Fin 8192) (hl : l.val = 1024 * k + r.val) :
    linT x w b r o = lin X W B n l o := by
  show (∑ e : Fin 512, x r e * w e o) + b o = (∑ e : Fin 512, X n l e * W o e) + B o
  rw [hb o]
  exact congrArg (· + B o) (Finset.sum_congr rfl fun e _ => by rw [hx r e l hl, hw e o])

/-- Tile `k` of a batch row contributes its 1024 rows' terms of the sum over the sequence. -/
theorem kv_tile (hx : ∀ r e (l : Fin 8192), l.val = 1024 * k + r.val → x r e = X n l e) (hw : ∀ e o, w e o = W o e)
    (hb : ∀ o, b o = B o) (hw' : ∀ e o, w' e o = W' o e) (hb' : ∀ o, b' o = B' o) (hk : k < 8) (i j : Fin 512) :
    kvTile (softT (linT x w b)) (linT x w' b') i j
      = ∑ r : Fin 1024, heads X W B n ⟨(1024 * k + r.val) % 8192, by omega⟩ ⟨i.val / 64, by omega⟩ ⟨i.val % 64, by omega⟩
          * vals X W' B' n ⟨(1024 * k + r.val) % 8192, by omega⟩ ⟨j.val / 64, by omega⟩ ⟨j.val % 64, by omega⟩ := by
  unfold kvTile
  refine Finset.sum_congr rfl fun r _ => ?_
  have hl : (1024 * k + r.val) % 8192 = 1024 * k + r.val := by omega
  refine congrArg₂ (· * ·) ?_ ?_
  · unfold softT heads
    exact congrArg (fun z => smax z ⟨i.val % 64, by omega⟩) (funext fun d' => lin_tile hx hw hb r _ _ hl)
  · unfold vals
    rw [col_div_mod j]
    exact lin_tile hx hw' hb' r j _ hl

theorem ks_tile (hx : ∀ r e (l : Fin 8192), l.val = 1024 * k + r.val → x r e = X n l e) (hw : ∀ e o, w e o = W o e)
    (hb : ∀ o, b o = B o) (hk : k < 8) (j : Fin 512) :
    ksumTile (softT (linT x w b)) j = ∑ r : Fin 1024, heads X W B n ⟨(1024 * k + r.val) % 8192, by omega⟩ ⟨j.val / 64, by omega⟩ ⟨j.val % 64, by omega⟩ := by
  unfold ksumTile softT heads
  refine Finset.sum_congr rfl fun r _ => ?_
  have hl : (1024 * k + r.val) % 8192 = 1024 * k + r.val := by omega
  exact congrArg (fun z => smax z ⟨j.val % 64, by omega⟩) (funext fun d' => lin_tile hx hw hb r _ _ hl)

end Tile

abbrev kvTerm0 (c : Dev nD) (n : Fin 4) (a b : Fin 512) (l : Fin 8192) : EReal :=
  heads (act (arr0 V c)) (matT (arr2 V c)) (bias (arr3 V c)) n l ⟨a.val / 64, by omega⟩ ⟨a.val % 64, by omega⟩ * vals (act (arr0 V c)) (matT (arr4 V c)) (bias (arr5 V c)) n l ⟨b.val / 64, by omega⟩ ⟨b.val % 64, by omega⟩
abbrev ksTerm0 (c : Dev nD) (n : Fin 4) (j : Fin 512) (l : Fin 8192) : EReal :=
  heads (act (arr0 V c)) (matT (arr2 V c)) (bias (arr3 V c)) n l ⟨j.val / 64, by omega⟩ ⟨j.val % 64, by omega⟩

theorem kvPt0 (c : Dev nD) (t : Fin cfg0.N) (n : Fin 4) (k : ℕ) (hk : k < 8) (ht : t.val = 8 * n.val + k) (a b : Fin 512) :
    kvTile (softT (linT (tile3 (blk0 V c t)) (mat2 (blk2 V c t)) (bias (blk3 V c t)))) (linT (tile3 (blk0 V c t)) (mat2 (blk4 V c t)) (bias (blk5 V c t))) a b
      = ∑ r : Fin 1024, kvTerm0 V c n a b ⟨(1024 * k + r.val) % 8192, by omega⟩ :=
  kv_tile (fun r e l hl => blk0_apply V c t r e n l (by omega) (by omega)) (blk2_apply V c t) (blk3_apply V c t)
    (blk4_apply V c t) (blk5_apply V c t) hk a b

theorem ksPt0 (c : Dev nD) (t : Fin cfg0.N) (n : Fin 4) (k : ℕ) (hk : k < 8) (ht : t.val = 8 * n.val + k) (j : Fin 512) :
    ksumTile (softT (linT (tile3 (blk0 V c t)) (mat2 (blk2 V c t)) (bias (blk3 V c t)))) j
      = ∑ r : Fin 1024, ksTerm0 V c n j ⟨(1024 * k + r.val) % 8192, by omega⟩ :=
  ks_tile (fun r e l hl => blk0_apply V c t r e n l (by omega) (by omega)) (blk2_apply V c t) (blk3_apply V c t) hk j

abbrev kvTerm1 (c : Dev nD) (n : Fin 4) (a b : Fin 512) (l : Fin 8192) : EReal :=
  heads (act (arr1 V c)) (matT (arr6 V c)) (bias (arr7 V c)) n l ⟨a.val / 64, by omega⟩ ⟨a.val % 64, by omega⟩ * vals (act (arr1 V c)) (matT (arr8 V c)) (bias (arr9 V c)) n l ⟨b.val / 64, by omega⟩ ⟨b.val % 64, by omega⟩
abbrev ksTerm1 (c : Dev nD) (n : Fin 4) (j : Fin 512) (l : Fin 8192) : EReal :=
  heads (act (arr1 V c)) (matT (arr6 V c)) (bias (arr7 V c)) n l ⟨j.val / 64, by omega⟩ ⟨j.val % 64, by omega⟩

theorem kvPt1 (c : Dev nD) (t : Fin cfg0.N) (n : Fin 4) (k : ℕ) (hk : k < 8) (ht : t.val = 8 * n.val + k) (a b : Fin 512) :
    kvTile (softT (linT (tile3 (blk1 V c t)) (mat2 (blk6 V c t)) (bias (blk7 V c t)))) (linT (tile3 (blk1 V c t)) (mat2 (blk8 V c t)) (bias (blk9 V c t))) a b
      = ∑ r : Fin 1024, kvTerm1 V c n a b ⟨(1024 * k + r.val) % 8192, by omega⟩ :=
  kv_tile (fun r e l hl => blk1_apply V c t r e n l (by omega) (by omega)) (blk6_apply V c t) (blk7_apply V c t)
    (blk8_apply V c t) (blk9_apply V c t) hk a b

theorem ksPt1 (c : Dev nD) (t : Fin cfg0.N) (n : Fin 4) (k : ℕ) (hk : k < 8) (ht : t.val = 8 * n.val + k) (j : Fin 512) :
    ksumTile (softT (linT (tile3 (blk1 V c t)) (mat2 (blk6 V c t)) (bias (blk7 V c t)))) j
      = ∑ r : Fin 1024, ksTerm1 V c n j ⟨(1024 * k + r.val) % 8192, by omega⟩ :=
  ks_tile (fun r e l hl => blk1_apply V c t r e n l (by omega) (by omega)) (blk6_apply V c t) (blk7_apply V c t) hk j

/-- After tile `k` of a batch row the block holds the running sum over tiles `0 … k`. -/
theorem kv0_acc (c : Dev nD) (n : Fin 4) (a b : Fin 512) : ∀ (k : ℕ) (t : Fin cfg0.N), k < 8 → t.val = 8 * n.val + k →
    (outsAt0 V c t.val t.isLt).1 (ix3 0 a b)
      = tileAcc (fun k' => ∑ r : Fin 1024, kvTerm0 V c n a b ⟨(1024 * k' + r.val) % 8192, by omega⟩) k
  | 0, t, hk, ht => by
    have h0 : t.val % 8 = 0 := by omega
    rw [outsAt0_A V c t h0, tileAcc_first]
    dsimp only [ptA]
    rw [B.out0_A_10_eq, B.kvAcc_apply, B.pay4_apply, zero_add]
    exact kvPt0 V c t n 0 hk ht a b
  | k + 1, t, hk, ht => by
    have h0 : ¬t.val % 8 = 0 := by omega
    rw [outsAt0_B V c t h0, tileAcc_next]
    dsimp only [ptB]
    rw [B.out0_B_10_eq, B.kvAcc_apply]
    exact congrArg₂ (· + ·)
      (kv0_acc c n a b k ⟨t.val - 1, Nat.lt_of_le_of_lt (Nat.sub_le _ _) t.isLt⟩ (by omega) (by show t.val - 1 = 8 * n.val + k; omega))
      (kvPt0 V c t n (k + 1) hk ht a b)

theorem ks0_acc (c : Dev nD) (n : Fin 4) (j : Fin 512) : ∀ (k : ℕ) (t : Fin cfg0.N), k < 8 → t.val = 8 * n.val + k →
    (outsAt0 V c t.val t.isLt).2.1 (ix3 0 0 j)
      = tileAcc (fun k' => ∑ r : Fin 1024, ksTerm0 V c n j ⟨(1024 * k' + r.val) % 8192, by omega⟩) k
  | 0, t, hk, ht => by
    have h0 : t.val % 8 = 0 := by omega
    rw [outsAt0_A V c t h0, tileAcc_first]
    dsimp only [ptA]
    rw [B.out0_A_11_eq, B.ksAcc_apply, B.pay5_apply, zero_add]
    exact ksPt0 V c t n 0 hk ht j
  | k + 1, t, hk, ht => by
    have h0 : ¬t.val % 8 = 0 := by omega
    rw [outsAt0_B V c t h0, tileAcc_next]
    dsimp only [ptB]
    rw [B.out0_B_11_eq, B.ksAcc_apply]
    exact congrArg₂ (· + ·)
      (ks0_acc c n j k ⟨t.val - 1, Nat.lt_of_le_of_lt (Nat.sub_le _ _) t.isLt⟩ (by omega) (by show t.val - 1 = 8 * n.val + k; omega))
      (ksPt0 V c t n (k + 1) hk ht j)

theorem kv1_acc (c : Dev nD) (n : Fin 4) (a b : Fin 512) : ∀ (k : ℕ) (t : Fin cfg0.N), k < 8 → t.val = 8 * n.val + k →
    (outsAt0 V c t.val t.isLt).2.2.1 (ix3 0 a b)
      = tileAcc (fun k' => ∑ r : Fin 1024, kvTerm1 V c n a b ⟨(1024 * k' + r.val) % 8192, by omega⟩) k
  | 0, t, hk, ht => by
    have h0 : t.val % 8 = 0 := by omega
    rw [outsAt0_A V c t h0, tileAcc_first]
    dsimp only [ptA]
    rw [B.out0_A_12_eq, B.kvAcc_apply, B.pay4_apply, zero_add]
    exact kvPt1 V c t n 0 hk ht a b
  | k + 1, t, hk, ht => by
    have h0 : ¬t.val % 8 = 0 := by omega
    rw [outsAt0_B V c t h0, tileAcc_next]
    dsimp only [ptB]
    rw [B.out0_B_12_eq, B.kvAcc_apply]
    exact congrArg₂ (· + ·)
      (kv1_acc c n a b k ⟨t.val - 1, Nat.lt_of_le_of_lt (Nat.sub_le _ _) t.isLt⟩ (by omega) (by show t.val - 1 = 8 * n.val + k; omega))
      (kvPt1 V c t n (k + 1) hk ht a b)

theorem ks1_acc (c : Dev nD) (n : Fin 4) (j : Fin 512) : ∀ (k : ℕ) (t : Fin cfg0.N), k < 8 → t.val = 8 * n.val + k →
    (outsAt0 V c t.val t.isLt).2.2.2 (ix3 0 0 j)
      = tileAcc (fun k' => ∑ r : Fin 1024, ksTerm1 V c n j ⟨(1024 * k' + r.val) % 8192, by omega⟩) k
  | 0, t, hk, ht => by
    have h0 : t.val % 8 = 0 := by omega
    rw [outsAt0_A V c t h0, tileAcc_first]
    dsimp only [ptA]
    rw [B.out0_A_13_eq, B.ksAcc_apply, B.pay5_apply, zero_add]
    exact ksPt1 V c t n 0 hk ht j
  | k + 1, t, hk, ht => by
    have h0 : ¬t.val % 8 = 0 := by omega
    rw [outsAt0_B V c t h0, tileAcc_next]
    dsimp only [ptB]
    rw [B.out0_B_13_eq, B.ksAcc_apply]
    exact congrArg₂ (· + ·)
      (ks1_acc c n j k ⟨t.val - 1, Nat.lt_of_le_of_lt (Nat.sub_le _ _) t.isLt⟩ (by omega) (by show t.val - 1 = 8 * n.val + k; omega))
      (ksPt1 V c t n (k + 1) hk ht j)

theorem idx_out : ∀ t : Fin cfg0.N, win0_10.index t (0 : Fin 3) = t.val / 8
    ∧ win0_10.index t (1 : Fin 3) = 0
    ∧ win0_10.index t (2 : Fin 3) = 0
    ∧ win0_11.index t (0 : Fin 3) = t.val / 8
    ∧ win0_11.index t (1 : Fin 3) = 0
    ∧ win0_11.index t (2 : Fin 3) = 0
    ∧ win0_12.index t (0 : Fin 3) = t.val / 8
    ∧ win0_12.index t (1 : Fin 3) = 0
    ∧ win0_12.index t (2 : Fin 3) = 0
    ∧ win0_13.index t (0 : Fin 3) = t.val / 8
    ∧ win0_13.index t (1 : Fin 3) = 0
    ∧ win0_13.index t (2 : Fin 3) = 0 :=
  (by decide +kernel : ∀ t : Fin grid0.N, _)

theorem idx_S1x512x512 (y : S1x512x512.Idx) : y = ix3 0 (y 1) (y 2) := by
  funext a
  match a with
  | ⟨0, _⟩ => exact Fin.ext (by have : (y 0).val < 1 := (y 0).isLt; show (y 0).val = 0; omega)
  | ⟨1, _⟩ => rfl
  | ⟨2, _⟩ => rfl
theorem idx_S1x1x512 (y : S1x1x512.Idx) : y = ix3 0 0 (y 2) := by
  funext a
  match a with
  | ⟨0, _⟩ => exact Fin.ext (by have : (y 0).val < 1 := (y 0).isLt; show (y 0).val = 0; omega)
  | ⟨1, _⟩ => exact Fin.ext (by have : (y 1).val < 1 := (y 1).isLt; show (y 1).val = 0; omega)
  | ⟨2, _⟩ => rfl

abbrev kvG0 (c : Dev nD) : S4x512x512.Idx → EReal := fun i => ∑ l : Fin 8192, kvTerm0 V c (i 0) (i 1) (i 2) l

theorem flushed10_eq (c : Dev nD) (t : Fin cfg0.N) (hf : (cfg0.win 10).flush t = true) :
    (dat0 V c).flushed 10 t = ((cfg0.win 10).blk t).view.read (Elt Ideal) (kvG0 V c) := by
  have h7 : t.val % 8 = 7 := (flush0_10 t).mp hf
  have hN : cfg0.N = 32 := N_0
  have hlt := t.isLt
  have hi := idx_out t
  show (cfg0.win 10).cut (grid0.coords t) ((dat0 V c).after 10 t) = _
  rw [after0_10]
  refine funext fun (y : S1x512x512.Idx) => ?_
  rw [View.read_apply]
  show (outsAt0 V c t.val t.isLt).1 y = kvG0 V c (((cfg0.win 10).blk t).view.emb y)
  obtain ⟨a, b, rfl⟩ : ∃ a b : Fin 512, y = ix3 0 a b := ⟨y 1, y 2, idx_S1x512x512 y⟩
  have e2 : ((cfg0.win 10).blk t).view.emb (ix3 0 a b) = ix3 ⟨t.val / 8, by omega⟩ a b := by
    funext d
    apply Fin.ext
    match d with
    | ⟨0, _⟩ => show win0_10.index t 0 * 1 + 1 * 0 = t.val / 8; rw [hi.1]; omega
    | ⟨1, _⟩ => show win0_10.index t 1 * 512 + 1 * a.val = a.val; rw [hi.2.1]; omega
    | ⟨2, _⟩ => show win0_10.index t 2 * 512 + 1 * b.val = b.val; rw [hi.2.2.1]; omega
  rw [e2]
  show _ = ∑ l : Fin 8192, kvTerm0 V c ⟨t.val / 8, by omega⟩ a b l
  exact (kv0_acc V c ⟨t.val / 8, by omega⟩ a b 7 t (by omega) (by show t.val = 8 * (t.val / 8) + 7; omega)).trans
    (acc_tiles (kvTerm0 V c ⟨t.val / 8, by omega⟩ a b))

theorem mem_blk10 (t : Fin cfg0.N) (i : S4x512x512.Idx) :
    i ∈ ((cfg0.win 10).blk t).view.set ↔ ∀ a : Fin 3, win0_10.index t a * S1x512x512.size a ≤ (i a).val ∧ (i a).val < win0_10.index t a * S1x512x512.size a + S1x512x512.size a := by
  show i ∈ ((View.whole main_v12_0).slice (win0_10.rect t)).set ↔ _
  rw [View.set_slice_whole, Rect.mem_set_unit]
  exact Iff.rfl

theorem final10 (c : Dev nD) : (dat0 V c).arrAt 10 cfg0.N = kvG0 V c :=
  (dat0 V c).arrAt_eq_of_cover 10 (kvG0 V c) (flushed10_eq V c) fun i => by
    have hN : cfg0.N = 32 := N_0
    have hi0 : (i 0).val < 4 := (i 0).isLt
    have hi1 : (i 1).val < 512 := (i 1).isLt
    have hi2 : (i 2).val < 512 := (i 2).isLt
    have hi := idx_out ⟨8 * (i 0).val + 7, by omega⟩
    refine ⟨⟨8 * (i 0).val + 7, by omega⟩, (flush0_10 _).mpr (by show (8 * (i 0).val + 7) % 8 = 7; omega), ?_⟩
    rw [mem_blk10]
    intro a
    match a with
    | ⟨0, _⟩ =>
      show win0_10.index _ 0 * 1 ≤ (i 0).val ∧ (i 0).val < win0_10.index _ 0 * 1 + 1
      rw [hi.1]; show (8 * (i 0).val + 7) / 8 * 1 ≤ (i 0).val ∧ (i 0).val < (8 * (i 0).val + 7) / 8 * 1 + 1; omega
    | ⟨1, _⟩ =>
      show win0_10.index _ 1 * 512 ≤ (i 1).val ∧ (i 1).val < win0_10.index _ 1 * 512 + 512
      rw [hi.2.1]; omega
    | ⟨2, _⟩ =>
      show win0_10.index _ 2 * 512 ≤ (i 2).val ∧ (i 2).val < win0_10.index _ 2 * 512 + 512
      rw [hi.2.2.1]; omega

abbrev ksG0 (c : Dev nD) : S4x1x512.Idx → EReal := fun i => ∑ l : Fin 8192, ksTerm0 V c (i 0) (i 2) l

theorem flushed11_eq (c : Dev nD) (t : Fin cfg0.N) (hf : (cfg0.win 11).flush t = true) :
    (dat0 V c).flushed 11 t = ((cfg0.win 11).blk t).view.read (Elt Ideal) (ksG0 V c) := by
  have h7 : t.val % 8 = 7 := (flush0_11 t).mp hf
  have hN : cfg0.N = 32 := N_0
  have hlt := t.isLt
  have hi := idx_out t
  show (cfg0.win 11).cut (grid0.coords t) ((dat0 V c).after 11 t) = _
  rw [after0_11]
  refine funext fun (y : S1x1x512.Idx) => ?_
  rw [View.read_apply]
  show (outsAt0 V c t.val t.isLt).2.1 y = ksG0 V c (((cfg0.win 11).blk t).view.emb y)
  obtain ⟨j, rfl⟩ : ∃ j : Fin 512, y = ix3 0 0 j := ⟨y 2, idx_S1x1x512 y⟩
  have e2 : ((cfg0.win 11).blk t).view.emb (ix3 0 0 j) = ix3 ⟨t.val / 8, by omega⟩ 0 j := by
    funext d
    apply Fin.ext
    match d with
    | ⟨0, _⟩ => show win0_11.index t 0 * 1 + 1 * 0 = t.val / 8; rw [hi.2.2.2.1]; omega
    | ⟨1, _⟩ => show win0_11.index t 1 * 1 + 1 * 0 = 0; rw [hi.2.2.2.2.1]
    | ⟨2, _⟩ => show win0_11.index t 2 * 512 + 1 * j.val = j.val; rw [hi.2.2.2.2.2.1]; omega
  rw [e2]
  show _ = ∑ l : Fin 8192, ksTerm0 V c ⟨t.val / 8, by omega⟩ j l
  exact (ks0_acc V c ⟨t.val / 8, by omega⟩ j 7 t (by omega) (by show t.val = 8 * (t.val / 8) + 7; omega)).trans
    (acc_tiles (ksTerm0 V c ⟨t.val / 8, by omega⟩ j))

theorem mem_blk11 (t : Fin cfg0.N) (i : S4x1x512.Idx) :
    i ∈ ((cfg0.win 11).blk t).view.set ↔ ∀ a : Fin 3, win0_11.index t a * S1x1x512.size a ≤ (i a).val ∧ (i a).val < win0_11.index t a * S1x1x512.size a + S1x1x512.size a := by
  show i ∈ ((View.whole main_v12_1).slice (win0_11.rect t)).set ↔ _
  rw [View.set_slice_whole, Rect.mem_set_unit]
  exact Iff.rfl

theorem final11 (c : Dev nD) : (dat0 V c).arrAt 11 cfg0.N = ksG0 V c :=
  (dat0 V c).arrAt_eq_of_cover 11 (ksG0 V c) (flushed11_eq V c) fun i => by
    have hN : cfg0.N = 32 := N_0
    have hi0 : (i 0).val < 4 := (i 0).isLt
    have hi1 : (i 1).val < 1 := (i 1).isLt
    have hi2 : (i 2).val < 512 := (i 2).isLt
    have hi := idx_out ⟨8 * (i 0).val + 7, by omega⟩
    refine ⟨⟨8 * (i 0).val + 7, by omega⟩, (flush0_11 _).mpr (by show (8 * (i 0).val + 7) % 8 = 7; omega), ?_⟩
    rw [mem_blk11]
    intro a
    match a with
    | ⟨0, _⟩ =>
      show win0_11.index _ 0 * 1 ≤ (i 0).val ∧ (i 0).val < win0_11.index _ 0 * 1 + 1
      rw [hi.2.2.2.1]; show (8 * (i 0).val + 7) / 8 * 1 ≤ (i 0).val ∧ (i 0).val < (8 * (i 0).val + 7) / 8 * 1 + 1; omega
    | ⟨1, _⟩ =>
      show win0_11.index _ 1 * 1 ≤ (i 1).val ∧ (i 1).val < win0_11.index _ 1 * 1 + 1
      rw [hi.2.2.2.2.1]; omega
    | ⟨2, _⟩ =>
      show win0_11.index _ 2 * 512 ≤ (i 2).val ∧ (i 2).val < win0_11.index _ 2 * 512 + 512
      rw [hi.2.2.2.2.2.1]; omega

abbrev kvG1 (c : Dev nD) : S4x512x512.Idx → EReal := fun i => ∑ l : Fin 8192, kvTerm1 V c (i 0) (i 1) (i 2) l

theorem flushed12_eq (c : Dev nD) (t : Fin cfg0.N) (hf : (cfg0.win 12).flush t = true) :
    (dat0 V c).flushed 12 t = ((cfg0.win 12).blk t).view.read (Elt Ideal) (kvG1 V c) := by
  have h7 : t.val % 8 = 7 := (flush0_12 t).mp hf
  have hN : cfg0.N = 32 := N_0
  have hlt := t.isLt
  have hi := idx_out t
  show (cfg0.win 12).cut (grid0.coords t) ((dat0 V c).after 12 t) = _
  rw [after0_12]
  refine funext fun (y : S1x512x512.Idx) => ?_
  rw [View.read_apply]
  show (outsAt0 V c t.val t.isLt).2.2.1 y = kvG1 V c (((cfg0.win 12).blk t).view.emb y)
  obtain ⟨a, b, rfl⟩ : ∃ a b : Fin 512, y = ix3 0 a b := ⟨y 1, y 2, idx_S1x512x512 y⟩
  have e2 : ((cfg0.win 12).blk t).view.emb (ix3 0 a b) = ix3 ⟨t.val / 8, by omega⟩ a b := by
    funext d
    apply Fin.ext
    match d with
    | ⟨0, _⟩ => show win0_12.index t 0 * 1 + 1 * 0 = t.val / 8; rw [hi.2.2.2.2.2.2.1]; omega
    | ⟨1, _⟩ => show win0_12.index t 1 * 512 + 1 * a.val = a.val; rw [hi.2.2.2.2.2.2.2.1]; omega
    | ⟨2, _⟩ => show win0_12.index t 2 * 512 + 1 * b.val = b.val; rw [hi.2.2.2.2.2.2.2.2.1]; omega
  rw [e2]
  show _ = ∑ l : Fin 8192, kvTerm1 V c ⟨t.val / 8, by omega⟩ a b l
  exact (kv1_acc V c ⟨t.val / 8, by omega⟩ a b 7 t (by omega) (by show t.val = 8 * (t.val / 8) + 7; omega)).trans
    (acc_tiles (kvTerm1 V c ⟨t.val / 8, by omega⟩ a b))

theorem mem_blk12 (t : Fin cfg0.N) (i : S4x512x512.Idx) :
    i ∈ ((cfg0.win 12).blk t).view.set ↔ ∀ a : Fin 3, win0_12.index t a * S1x512x512.size a ≤ (i a).val ∧ (i a).val < win0_12.index t a * S1x512x512.size a + S1x512x512.size a := by
  show i ∈ ((View.whole main_v12_2).slice (win0_12.rect t)).set ↔ _
  rw [View.set_slice_whole, Rect.mem_set_unit]
  exact Iff.rfl

theorem final12 (c : Dev nD) : (dat0 V c).arrAt 12 cfg0.N = kvG1 V c :=
  (dat0 V c).arrAt_eq_of_cover 12 (kvG1 V c) (flushed12_eq V c) fun i => by
    have hN : cfg0.N = 32 := N_0
    have hi0 : (i 0).val < 4 := (i 0).isLt
    have hi1 : (i 1).val < 512 := (i 1).isLt
    have hi2 : (i 2).val < 512 := (i 2).isLt
    have hi := idx_out ⟨8 * (i 0).val + 7, by omega⟩
    refine ⟨⟨8 * (i 0).val + 7, by omega⟩, (flush0_12 _).mpr (by show (8 * (i 0).val + 7) % 8 = 7; omega), ?_⟩
    rw [mem_blk12]
    intro a
    match a with
    | ⟨0, _⟩ =>
      show win0_12.index _ 0 * 1 ≤ (i 0).val ∧ (i 0).val < win0_12.index _ 0 * 1 + 1
      rw [hi.2.2.2.2.2.2.1]; show (8 * (i 0).val + 7) / 8 * 1 ≤ (i 0).val ∧ (i 0).val < (8 * (i 0).val + 7) / 8 * 1 + 1; omega
    | ⟨1, _⟩ =>
      show win0_12.index _ 1 * 512 ≤ (i 1).val ∧ (i 1).val < win0_12.index _ 1 * 512 + 512
      rw [hi.2.2.2.2.2.2.2.1]; omega
    | ⟨2, _⟩ =>
      show win0_12.index _ 2 * 512 ≤ (i 2).val ∧ (i 2).val < win0_12.index _ 2 * 512 + 512
      rw [hi.2.2.2.2.2.2.2.2.1]; omega

abbrev ksG1 (c : Dev nD) : S4x1x512.Idx → EReal := fun i => ∑ l : Fin 8192, ksTerm1 V c (i 0) (i 2) l

theorem flushed13_eq (c : Dev nD) (t : Fin cfg0.N) (hf : (cfg0.win 13).flush t = true) :
    (dat0 V c).flushed 13 t = ((cfg0.win 13).blk t).view.read (Elt Ideal) (ksG1 V c) := by
  have h7 : t.val % 8 = 7 := (flush0_13 t).mp hf
  have hN : cfg0.N = 32 := N_0
  have hlt := t.isLt
  have hi := idx_out t
  show (cfg0.win 13).cut (grid0.coords t) ((dat0 V c).after 13 t) = _
  rw [after0_13]
  refine funext fun (y : S1x1x512.Idx) => ?_
  rw [View.read_apply]
  show (outsAt0 V c t.val t.isLt).2.2.2 y = ksG1 V c (((cfg0.win 13).blk t).view.emb y)
  obtain ⟨j, rfl⟩ : ∃ j : Fin 512, y = ix3 0 0 j := ⟨y 2, idx_S1x1x512 y⟩
  have e2 : ((cfg0.win 13).blk t).view.emb (ix3 0 0 j) = ix3 ⟨t.val / 8, by omega⟩ 0 j := by
    funext d
    apply Fin.ext
    match d with
    | ⟨0, _⟩ => show win0_13.index t 0 * 1 + 1 * 0 = t.val / 8; rw [hi.2.2.2.2.2.2.2.2.2.1]; omega
    | ⟨1, _⟩ => show win0_13.index t 1 * 1 + 1 * 0 = 0; rw [hi.2.2.2.2.2.2.2.2.2.2.1]
    | ⟨2, _⟩ => show win0_13.index t 2 * 512 + 1 * j.val = j.val; rw [hi.2.2.2.2.2.2.2.2.2.2.2]; omega
  rw [e2]
  show _ = ∑ l : Fin 8192, ksTerm1 V c ⟨t.val / 8, by omega⟩ j l
  exact (ks1_acc V c ⟨t.val / 8, by omega⟩ j 7 t (by omega) (by show t.val = 8 * (t.val / 8) + 7; omega)).trans
    (acc_tiles (ksTerm1 V c ⟨t.val / 8, by omega⟩ j))

theorem mem_blk13 (t : Fin cfg0.N) (i : S4x1x512.Idx) :
    i ∈ ((cfg0.win 13).blk t).view.set ↔ ∀ a : Fin 3, win0_13.index t a * S1x1x512.size a ≤ (i a).val ∧ (i a).val < win0_13.index t a * S1x1x512.size a + S1x1x512.size a := by
  show i ∈ ((View.whole main_v12_3).slice (win0_13.rect t)).set ↔ _
  rw [View.set_slice_whole, Rect.mem_set_unit]
  exact Iff.rfl

theorem final13 (c : Dev nD) : (dat0 V c).arrAt 13 cfg0.N = ksG1 V c :=
  (dat0 V c).arrAt_eq_of_cover 13 (ksG1 V c) (flushed13_eq V c) fun i => by
    have hN : cfg0.N = 32 := N_0
    have hi0 : (i 0).val < 4 := (i 0).isLt
    have hi1 : (i 1).val < 1 := (i 1).isLt
    have hi2 : (i 2).val < 512 := (i 2).isLt
    have hi := idx_out ⟨8 * (i 0).val + 7, by omega⟩
    refine ⟨⟨8 * (i 0).val + 7, by omega⟩, (flush0_13 _).mpr (by show (8 * (i 0).val + 7) % 8 = 7; omega), ?_⟩
    rw [mem_blk13]
    intro a
    match a with
    | ⟨0, _⟩ =>
      show win0_13.index _ 0 * 1 ≤ (i 0).val ∧ (i 0).val < win0_13.index _ 0 * 1 + 1
      rw [hi.2.2.2.2.2.2.2.2.2.1]; show (8 * (i 0).val + 7) / 8 * 1 ≤ (i 0).val ∧ (i 0).val < (8 * (i 0).val + 7) / 8 * 1 + 1; omega
    | ⟨1, _⟩ =>
      show win0_13.index _ 1 * 1 ≤ (i 1).val ∧ (i 1).val < win0_13.index _ 1 * 1 + 1
      rw [hi.2.2.2.2.2.2.2.2.2.2.1]; omega
    | ⟨2, _⟩ =>
      show win0_13.index _ 2 * 512 ≤ (i 2).val ∧ (i 2).val < win0_13.index _ 2 * 512 + 512
      rw [hi.2.2.2.2.2.2.2.2.2.2.2]; omega

theorem kv0_arr (c : Dev nD) (n : Fin 4) (a b : Fin 512) :
    (dat0 (F := Ideal) V c).arrAt 10 cfg0.N (ix3 n a b)
      = ∑ l : Fin 8192, heads (act (V c main_arg1)) (matT (V c main_v3)) (bias (V c main_arg6)) n l ⟨a.val / 64, by omega⟩ ⟨a.val % 64, by omega⟩
          * vals (act (V c main_arg1)) (matT (V c main_v5)) (bias (V c main_arg8)) n l ⟨b.val / 64, by omega⟩ ⟨b.val % 64, by omega⟩ :=
  congrFun (final10 V c) (ix3 n a b)

theorem ksum0_arr (c : Dev nD) (n : Fin 4) (j : Fin 512) :
    (dat0 (F := Ideal) V c).arrAt 11 cfg0.N (ix3 n 0 j)
      = ∑ l : Fin 8192, heads (act (V c main_arg1)) (matT (V c main_v3)) (bias (V c main_arg6)) n l ⟨j.val / 64, by omega⟩ ⟨j.val % 64, by omega⟩ :=
  congrFun (final11 V c) (ix3 n 0 j)

theorem kv1_arr (c : Dev nD) (n : Fin 4) (a b : Fin 512) :
    (dat0 (F := Ideal) V c).arrAt 12 cfg0.N (ix3 n a b)
      = ∑ l : Fin 8192, heads (act (V c main_arg2)) (matT (V c main_v7)) (bias (V c main_arg10)) n l ⟨a.val / 64, by omega⟩ ⟨a.val % 64, by omega⟩
          * vals (act (V c main_arg2)) (matT (V c main_v9)) (bias (V c main_arg12)) n l ⟨b.val / 64, by omega⟩ ⟨b.val % 64, by omega⟩ :=
  congrFun (final12 V c) (ix3 n a b)

theorem ksum1_arr (c : Dev nD) (n : Fin 4) (j : Fin 512) :
    (dat0 (F := Ideal) V c).arrAt 13 cfg0.N (ix3 n 0 j)
      = ∑ l : Fin 8192, heads (act (V c main_arg2)) (matT (V c main_v7)) (bias (V c main_arg10)) n l ⟨j.val / 64, by omega⟩ ⟨j.val % 64, by omega⟩ :=
  congrFun (final13 V c) (ix3 n 0 j)

end

end Cert.KernelIdeal.Val0

end
-- ==== Proof.KI.Val1Pt.lean ====
import proofs.«425839_j19628000543020_3_alg».proof.Proof.KI.R1
import proofs.«425839_j19628000543020_3_alg».proof.Proof.KI.Val0Pt
import proofs.«425839_j19628000543020_3_alg».proof.Proof.BlockSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Cert.KernelIdeal Cert.KernelIdeal.Gen Cert.KernelIdeal.Hand Cert.Spec
open Idealize.ShloMosaic Idealize.ShloMosaic.TcCoe Idealize.ShloMosaic.ValueIdx
open Idealize.ShloMosaic.Pipeline (Dat)
open Idealize.ShloMosaic.Tactic

variable {F : FTy → Type} [FloatOps F]

def linV (X : FVec F S1024x512 .f32) (W : Vec F S512x512 .bf16) (b : Vec F S512 .f32) : FVec F S1024x512 .f32 :=
  addf (matmul dot_S1024x512_S512x512_S1024x512_1_0_0_1_n_n none (truncf .bf16 X bitsLt_bf16_f32)
      (shapeCast S512x512 W shapeCasts_S512x512_S512x512) (constant S1024x512 .f32 0x00000000#32))
    (broadcastTo S1024x512 (shapeCast S1x512 b shapeCasts_S512_S1x512) broadcasts_S1x512_S1024x512)

def mxV (z : FVec F S1024x64 .f32) : FVec F S1024x64 .f32 :=
  broadcastTo S1024x64 (shapeCast S1024x1 (maximumf (broadcast S1024 (Scalar.ofBits .f32 0xFF800000#32))
    (multiReduction .maximumf [1] S1024 z 0xFF800000#32 reduces_S1024x64_S1024 (.inl rfl) rfl)) shapeCasts_S1024_S1024x1)
    broadcasts_S1024x1_S1024x64

def nmV (z m : FVec F S1024x64 .f32) : FVec F S1024x64 .f32 :=
  divf (exp (subf z m)) (broadcastTo S1024x64 (shapeCast S1024x1
    (multiReduction .add [1] S1024 (exp (subf z m)) 0x00000000#32 reduces_S1024x64_S1024 (.inl rfl) rfl) shapeCasts_S1024_S1024x1)
    broadcasts_S1024x1_S1024x64)

def smV (z : FVec F S1024x64 .f32) : FVec F S1024x64 .f32 := nmV z (mxV z)

def dsV (q : FVec F S1024x64 .f32) (ks : FVec F S64 .f32) : FVec F S1024x1 .f32 :=
  shapeCast S1024x1 (multiReduction .add [1] S1024 (mulf q (broadcastTo S1024x64 (shapeCast S1x64 ks shapeCasts_S64_S1x64)
    broadcasts_S1x64_S1024x64)) 0x00000000#32 reduces_S1024x64_S1024 (.inl rfl) rfl) shapeCasts_S1024_S1024x1

def alV (q : FVec F S1024x64 .f32) (ks : Vec F S1x1x64 .f32) : FVec F S1024x1 .f32 :=
  divf (broadcast S1024x1 (Scalar.ofBits .f32 0x3F800000#32)) (dsV q (shapeCast S64 ks shapeCasts_S1x1x64_S64))

def roV (q : FVec F S1024x64 .f32) (al : FVec F S1024x1 .f32) (kv : Vec F S1x1x64x64 .f32) : FVec F S1024x64 .f32 :=
  mulf (broadcastTo S1024x64 al broadcasts_S1024x1_S1024x64)
    (matmul dot_S1024x64_S64x64_S1024x64_1_0_0_1_n_n none (truncf .bf16 q bitsLt_bf16_f32)
      (truncf .bf16 (shapeCast S64x64 kv shapeCasts_S1x1x64x64_S64x64) bitsLt_bf16_f32) (constant S1024x64 .f32 0x00000000#32))

def resV (q : FVec F S1024x64 .f32) (ks0 ks1 : Vec F S1x1x64 .f32) (kv0 kv1 : Vec F S1x1x64x64 .f32) : FVec F S1024x64 .f32 :=
  addf q (mulf (broadcast S1024x64 (Scalar.ofBits .f32 0x3F000000#32)) (addf (roV q (alV q ks0) kv0) (roV q (alV q ks1) kv1)))

theorem pay2_eq (x0 : Vec F S1x1024x512 .f32) (W : Vec F S512x512 .bf16) (b : Vec F S512 .f32) :
    k1_pay2 x0 W b = linV (shapeCast S1024x512 x0 shapeCasts_S1x1024x512_S1024x512) W b := rfl

section AtIdeal

theorem rowSum_apply (v : FVec Ideal S1024x64 .f32) (r : Fin 1024) :
    multiReduction .add [1] S1024 v 0x00000000#32 reduces_S1024x64_S1024 (.inl rfl) rfl (ix1 r) = ∑ k : Fin 64, v (ix2 r k) := by
  refine (Ideal.multiReduction_add_single v _ reduces_S1024x64_S1024 (.inl rfl) rfl (ix1 r)).trans ?_
  show ∑ k : Fin 64, v (reduces_S1024x64_S1024.lift (ix1 r) k) = _
  refine Finset.sum_congr rfl fun k _ => congrArg v ?_
  exact funext fun a => Fin.ext (by match a with | ⟨0, _⟩ => rfl | ⟨1, _⟩ => rfl)

theorem smV_apply (z : FVec Ideal S1024x64 .f32) (r : Fin 1024) (d : Fin 64) :
    smV z (ix2 r d) = smax (fun k => z (ix2 r k)) d :=
  Val0.B.headSoft_headMax_apply z r d

end AtIdeal

section AtIdeal2

theorem col_cast_apply (w : FVec Ideal S1024 .f32) (r : Fin 1024) (c : Fin 1) :
    shapeCast S1024x1 w shapeCasts_S1024_S1024x1 (ix2 r c) = w (ix1 r) :=
  shapeCast_apply w shapeCasts_S1024_S1024x1 (ix2 r c) (ix1 r) (by
    have hc : c.val = 0 := by omega
    rw [Shape.rowMajor_val_two, Shape.rowMajor_val_one]; show r.val = r.val * 1 + c.val; omega)

theorem bcast_col_apply (w : FVec Ideal S1024x1 .f32) (r : Fin 1024) (d : Fin 64) :
    broadcastTo S1024x64 w broadcasts_S1024x1_S1024x64 (ix2 r d) = w (ix2 r (0 : Fin 1)) :=
  broadcastTo_apply _ broadcasts_S1024x1_S1024x64 (ix2 r d) (ix2 r (0 : Fin 1)) fun ax => by
    match ax with
    | ⟨0, _⟩ => show r.val = if (1024 : Nat) = 1 then 0 else r.val; rw [if_neg (by decide)]
    | ⟨1, _⟩ => show 0 = if (1 : Nat) = 1 then 0 else d.val; rw [if_pos rfl]

theorem dsV_apply (q : FVec Ideal S1024x64 .f32) (ks : FVec Ideal S64 .f32) (r : Fin 1024) (c : Fin 1) :
    dsV q ks (ix2 r c) = ∑ k : Fin 64, q (ix2 r k) * ks (ix1 k) := by
  unfold dsV
  rw [col_cast_apply, rowSum_apply]
  refine Finset.sum_congr rfl fun k _ => ?_
  show q (ix2 r k) * broadcastTo S1024x64 (shapeCast S1x64 ks shapeCasts_S64_S1x64) broadcasts_S1x64_S1024x64 (ix2 r k) = _
  rw [broadcastTo_1b_ab_apply, shapeCast_a_1a_apply]

theorem ks_cast_apply (ks : Vec Ideal S1x1x64 .f32) (k : Fin 64) :
    shapeCast S64 ks shapeCasts_S1x1x64_S64 (ix1 k) = ks (ix3 (0 : Fin 1) (0 : Fin 1) k) :=
  shapeCast_apply ks shapeCasts_S1x1x64_S64 (ix1 k) (ix3 (0 : Fin 1) (0 : Fin 1) k) (by
    rw [Shape.rowMajor_val_three, Shape.rowMajor_val_one]; show (0 * 1 + 0) * 64 + k.val = k.val; omega)

theorem kv_cast_apply (kv : Vec Ideal S1x1x64x64 .f32) (k e : Fin 64) :
    shapeCast S64x64 kv shapeCasts_S1x1x64x64_S64x64 (ix2 k e) = kv (ix4 (0 : Fin 1) (0 : Fin 1) k e) :=
  shapeCast_apply kv shapeCasts_S1x1x64x64_S64x64 (ix2 k e) (ix4 (0 : Fin 1) (0 : Fin 1) k e) (by
    rw [Shape.rowMajor_val_four, Shape.rowMajor_val_two]; show ((0 * 1 + 0) * 64 + k.val) * 64 + e.val = k.val * 64 + e.val; omega)

theorem alV_apply (q : FVec Ideal S1024x64 .f32) (ks : Vec Ideal S1x1x64 .f32) (r : Fin 1024) (c : Fin 1) :
    alV q ks (ix2 r c) = Ideal.div one (∑ k : Fin 64, q (ix2 r k) * ks (ix3 (0 : Fin 1) (0 : Fin 1) k)) := by
  unfold alV
  show Ideal.div one (dsV q (shapeCast S64 ks shapeCasts_S1x1x64_S64) (ix2 r c)) = _
  rw [dsV_apply]
  exact congrArg (Ideal.div one) (Finset.sum_congr rfl fun k _ => congrArg (q (ix2 r k) * ·) (ks_cast_apply ks k))

end AtIdeal2

section MatMul

theorem lhs64_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem lhs64_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem rhs64_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem rhs64_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

theorem mm64_apply {φ₁ φ₂ : FTy} (A : FVec Ideal S1024x64 φ₁) (B : FVec Ideal S64x64 φ₂) (r : Fin 1024) (e : Fin 64) :
    matmul dot_S1024x64_S64x64_S1024x64_1_0_0_1_n_n none A B (constant S1024x64 .f32 0x00000000#32) (ix2 r e)
      = ∑ k : Fin 64, A (ix2 r k) * B (ix2 k e) := by
  refine (Ideal.matmul_constant_zero_apply dot_S1024x64_S64x64_S1024x64_1_0_0_1_n_n none A B (ix2 r e)).trans ?_
  rw [← Equiv.sum_comp (ValueIdx.contrEquiv1 dot_S1024x64_S64x64_S1024x64_1_0_0_1_n_n 64 rfl rfl).symm]
  refine Finset.sum_congr rfl fun k _ => ?_
  have hk := ValueIdx.contrEquiv1_symm_val dot_S1024x64_S64x64_S1024x64_1_0_0_1_n_n 64 rfl rfl k
  have el : dot_S1024x64_S64x64_S1024x64_1_0_0_1_n_n.lhsIdx (ix2 r e) ((ValueIdx.contrEquiv1 dot_S1024x64_S64x64_S1024x64_1_0_0_1_n_n 64 rfl rfl).symm k) = ix2 r k := funext fun a => Fin.ext (by
    match a with
    | ⟨0, _⟩ => exact lhs64_0 _ _
    | ⟨1, _⟩ => exact (lhs64_1 _ _).trans hk)
  have er : dot_S1024x64_S64x64_S1024x64_1_0_0_1_n_n.rhsIdx (ix2 r e) ((ValueIdx.contrEquiv1 dot_S1024x64_S64x64_S1024x64_1_0_0_1_n_n 64 rfl rfl).symm k) = ix2 k e := funext fun a => Fin.ext (by
    match a with
    | ⟨0, _⟩ => exact (rhs64_0 _ _).trans hk
    | ⟨1, _⟩ => exact rhs64_1 _ _)
  rw [el, er]

end MatMul

section AtIdeal3

theorem roV_apply (q : FVec Ideal S1024x64 .f32) (al : FVec Ideal S1024x1 .f32) (kv : Vec Ideal S1x1x64x64 .f32)
    (r : Fin 1024) (e : Fin 64) :
    roV q al kv (ix2 r e) = al (ix2 r (0 : Fin 1)) * ∑ k : Fin 64, q (ix2 r k) * kv (ix4 (0 : Fin 1) (0 : Fin 1) k e) := by
  unfold roV
  show broadcastTo S1024x64 al broadcasts_S1024x1_S1024x64 (ix2 r e) * matmul dot_S1024x64_S64x64_S1024x64_1_0_0_1_n_n none _ _ (constant S1024x64 .f32 0x00000000#32) (ix2 r e) = _
  rw [bcast_col_apply, mm64_apply]
  exact congrArg (al (ix2 r (0 : Fin 1)) * ·) (Finset.sum_congr rfl fun k _ => congrArg (q (ix2 r k) * ·) (kv_cast_apply kv k e))

theorem resV_apply (q : FVec Ideal S1024x64 .f32) (ks0 ks1 : Vec Ideal S1x1x64 .f32) (kv0 kv1 : Vec Ideal S1x1x64x64 .f32)
    (r : Fin 1024) (e : Fin 64) :
    resV q ks0 ks1 kv0 kv1 (ix2 r e)
      = q (ix2 r e) + half *
          (Ideal.div one (∑ k : Fin 64, q (ix2 r k) * ks0 (ix3 (0 : Fin 1) (0 : Fin 1) k))
              * ∑ k : Fin 64, q (ix2 r k) * kv0 (ix4 (0 : Fin 1) (0 : Fin 1) k e)
            + Ideal.div one (∑ k : Fin 64, q (ix2 r k) * ks1 (ix3 (0 : Fin 1) (0 : Fin 1) k))
              * ∑ k : Fin 64, q (ix2 r k) * kv1 (ix4 (0 : Fin 1) (0 : Fin 1) k e)) := by
  unfold resV
  show q (ix2 r e) + half * (roV q (alV q ks0) kv0 (ix2 r e) + roV q (alV q ks1) kv1 (ix2 r e)) = _
  rw [roV_apply, roV_apply, alV_apply, alV_apply]

theorem linV_apply (X : FVec Ideal S1024x512 .f32) (W : Vec Ideal S512x512 .bf16) (b : Vec Ideal S512 .f32) (r : Fin 1024) (o : Fin 512) :
    linV X W b (ix2 r o) = (∑ e : Fin 512, X (ix2 r e) * W (ix2 e o)) + b (ix1 o) := by
  unfold linV
  refine (addf_apply _ _ _).trans ?_
  rw [Val0.B.matmulP_apply, broadcastTo_1b_ab_apply, shapeCast_a_1a_apply]
  refine congrArg (· + b (ix1 o)) (Finset.sum_congr rfl fun e _ => congrArg (X (ix2 r e) * ·) ?_)
  exact congrFun (shapeCast_self W shapeCasts_S512x512_S512x512) (ix2 e o)

end AtIdeal3

section Layout

/-- Column `64·h + d` of eight 64-column pieces laid side by side is column `d` of piece `h`. -/
theorem concat8_apply (p : Fin 8 → FVec Ideal S1024x64 .f32)
    (hc : Shape.Concatenates [S1024x64, S1024x64, S1024x64, S1024x64, S1024x64, S1024x64, S1024x64, S1024x64] S1024x512 1)
    (r : Fin 1024) (h : Fin 8) (d : Fin 64) :
    concatenate S1024x512 1 [⟨S1024x64, p 0⟩, ⟨S1024x64, p 1⟩, ⟨S1024x64, p 2⟩, ⟨S1024x64, p 3⟩, ⟨S1024x64, p 4⟩, ⟨S1024x64, p 5⟩,
        ⟨S1024x64, p 6⟩, ⟨S1024x64, p 7⟩] hc (ix2 r (col h d)) = p h (ix2 r d) :=
  concatenate_ofFn_apply (1 : Fin S1024x512.rank) p hc rfl 64 rfl (ix2 r (col h d)) h (col_div h d) (ix2 r d) (col_mod h d).symm
    fun b hb => by
      match b with
      | ⟨0, _⟩ => rfl
      | ⟨1, _⟩ => exact absurd rfl hb

theorem slice_col_apply (v : FVec Ideal S1024x512 .f32) (h : Fin 8) (off : Nat) (hoff : off = 64 * h.val)
    (hs : S1024x512.Slices ![0, off] S1024x64) (r : Fin 1024) (d : Fin 64) :
    extractStridedSlice S1024x64 ![0, off] v hs (ix2 r d) = v (ix2 r (col h d)) :=
  slice2_axis1_apply off v hs r d (col h d) (by show 64 * h.val + d.val = off + d.val; omega)

theorem ld_ks (x : Vec Ideal S1x8x64 .f32) (hn : Nat) (hlt : hn < 8)
    (inb : ∀ a, (![0, hn, 0] : Fin 3 → Nat) a + (![1, 1, 64] : Fin 3 → Nat) a ≤ S1x8x64.size a) (d : Fin 64) :
    View.ld x (Rect.unit (s := S1x8x64) ![0, hn, 0] ![1, 1, 64] inb) (ix3 (0 : Fin 1) (0 : Fin 1) d) = x (ix3 (0 : Fin 1) (⟨hn, hlt⟩ : Fin 8) d) :=
  congrArg x (funext fun a => Fin.ext (by
    match a with
    | ⟨0, _⟩ => rfl
    | ⟨1, _⟩ => show hn + 1 * 0 = hn; omega
    | ⟨2, _⟩ => show 0 + 1 * d.val = d.val; omega))

theorem ld_kv (x : Vec Ideal S1x8x64x64 .f32) (hn : Nat) (hlt : hn < 8)
    (inb : ∀ a, (![0, hn, 0, 0] : Fin 4 → Nat) a + (![1, 1, 64, 64] : Fin 4 → Nat) a ≤ S1x8x64x64.size a) (d e : Fin 64) :
    View.ld x (Rect.unit (s := S1x8x64x64) ![0, hn, 0, 0] ![1, 1, 64, 64] inb) (ix4 (0 : Fin 1) (0 : Fin 1) d e)
      = x (ix4 (0 : Fin 1) (⟨hn, hlt⟩ : Fin 8) d e) :=
  congrArg x (funext fun a => Fin.ext (by
    match a with
    | ⟨0, _⟩ => rfl
    | ⟨1, _⟩ => show hn + 1 * 0 = hn; omega
    | ⟨2, _⟩ => show 0 + 1 * d.val = d.val; omega
    | ⟨3, _⟩ => show 0 + 1 * e.val = e.val; omega))

end Layout

section Body

theorem hsl (h : Fin 8) : S1024x512.Slices ![0, 64 * h.val] S1024x64 := by revert h; decide
theorem inbS (h : Fin 8) : ∀ a, (![0, h.val, 0] : Fin 3 → Nat) a + S1x1x64.size a ≤ S1x8x64.size a := by revert h; decide
theorem inbV (h : Fin 8) : ∀ a, (![0, h.val, 0, 0] : Fin 4 → Nat) a + S1x1x64x64.size a ≤ S1x8x64x64.size a := by revert h; decide

/-- Head `h` of the output tile before the last projection: the query head plus half the two attention terms. -/
def headsV (v9 : FVec F S1024x512 .f32) (x3 : Vec F S1x8x64x64 .f32) (x4 : Vec F S1x8x64 .f32) (x5 : Vec F S1x8x64x64 .f32)
    (x6 : Vec F S1x8x64 .f32) (h : Fin 8) : FVec F S1024x64 .f32 :=
  resV (smV (extractStridedSlice S1024x64 ![0, 64 * h.val] v9 (hsl h)))
    (View.ld x4 (Rect.unit (s := S1x8x64) ![0, h.val, 0] S1x1x64.size (inbS h))) (View.ld x6 (Rect.unit (s := S1x8x64) ![0, h.val, 0] S1x1x64.size (inbS h)))
    (View.ld x3 (Rect.unit (s := S1x8x64x64) ![0, h.val, 0, 0] S1x1x64x64.size (inbV h))) (View.ld x5 (Rect.unit (s := S1x8x64x64) ![0, h.val, 0, 0] S1x1x64x64.size (inbV h)))

def bodyV (x0 : Vec F S1x1024x512 .f32) (x1 : Vec F S512x512 .bf16) (x2 : Vec F S512 .f32) (x3 : Vec F S1x8x64x64 .f32)
    (x4 : Vec F S1x8x64 .f32) (x5 : Vec F S1x8x64x64 .f32) (x6 : Vec F S1x8x64 .f32) (x7 : Vec F S512x512 .bf16) (x8 : Vec F S512 .f32) :
    FVec F S1x1024x512 .f32 :=
  k1_pay1 (linV (concatenate S1024x512 1
    [⟨S1024x64, headsV (k1_pay2 x0 x1 x2) x3 x4 x5 x6 0⟩, ⟨S1024x64, headsV (k1_pay2 x0 x1 x2) x3 x4 x5 x6 1⟩, ⟨S1024x64, headsV (k1_pay2 x0 x1 x2) x3 x4 x5 x6 2⟩, ⟨S1024x64, headsV (k1_pay2 x0 x1 x2) x3 x4 x5 x6 3⟩, ⟨S1024x64, headsV (k1_pay2 x0 x1 x2) x3 x4 x5 x6 4⟩, ⟨S1024x64, headsV (k1_pay2 x0 x1 x2) x3 x4 x5 x6 5⟩, ⟨S1024x64, headsV (k1_pay2 x0 x1 x2) x3 x4 x5 x6 6⟩, ⟨S1024x64, headsV (k1_pay2 x0 x1 x2) x3 x4 x5 x6 7⟩]
    concatenates_S1024x64_S1024x64_S1024x64_S1024x64_S1024x64_S1024x64_S1024x64_S1024x64_S1024x512_d1) x7 x8)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

theorem out1_9_eq (c : Dev nD) (i : grid1.Coords) (arg2 : Memref sig .tc .vmem S1x1024x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S1x8x64x64 .f32) (harg5 : arg5.IsWhole) (arg6 : Memref sig .tc .vmem S1x8x64 .f32) (harg6 : arg6.IsWhole) (arg7 : Memref sig .tc .vmem S1x8x64x64 .f32) (harg7 : arg7.IsWhole) (arg8 : Memref sig .tc .vmem S1x8x64 .f32) (harg8 : arg8.IsWhole) (arg9 : Memref sig .tc .vmem S512x512 .bf16) (harg9 : arg9.IsWhole) (arg10 : Memref sig .tc .vmem S512 .f32) (harg10 : arg10.IsWhole) (arg11 : Memref sig .tc .vmem S1x1024x512 .f32) (harg11 : arg11.IsWhole)
    (x0 : Vec F S1x1024x512 .f32) (x1 : Vec F S512x512 .bf16) (x2 : Vec F S512 .f32) (x3 : Vec F S1x8x64x64 .f32) (x4 : Vec F S1x8x64 .f32) (x5 : Vec F S1x8x64x64 .f32) (x6 : Vec F S1x8x64 .f32) (x7 : Vec F S512x512 .bf16) (x8 : Vec F S512 .f32) :
    out1_9 c i arg2 harg2 arg3 harg3 arg4 harg4 arg5 harg5 arg6 harg6 arg7 harg7 arg8 harg8 arg9 harg9 arg10 harg10 arg11 harg11 x0 x1 x2 x3 x4 x5 x6 x7 x8 = bodyV x0 x1 x2 x3 x4 x5 x6 x7 x8 := by
  unfold out1_9
  rw [View.read_writes_eq_canon _ _ _ (cover1_9 c i arg2 harg2 arg3 harg3 arg4 harg4 arg5 harg5 arg6 harg6 arg7 harg7 arg8 harg8 arg9 harg9 arg10 harg10 arg11 harg11 x0 x1 x2 x3 x4 x5 x6 x7 x8)]
  unfold kernelRun1
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread,
    View.ld_unit_zero (S := S1x1024x512) hz3, View.ld_unit_zero (S := S512x512) hz2, View.ld_unit_zero (S := S512) hz1]
  rfl

end Body

section Final

theorem softT_at_col (Y : Tile) (r : Fin 1024) (h : Fin 8) (k : Fin 64) :
    softT Y r (col h k) = smax (fun d' => Y r (col h d')) k := by
  have e1 : (⟨(col h k).val / 64, by omega⟩ : Fin 8) = h := Fin.ext (col_div h k)
  have e2 : (⟨(col h k).val % 64, by omega⟩ : Fin 64) = k := Fin.ext (col_mod h k)
  show smax (fun d' => Y r (col ⟨(col h k).val / 64, by omega⟩ d')) ⟨(col h k).val % 64, by omega⟩ = _
  rw [e1, e2]

theorem attT_at_col (Q : Tile) (ks : Fin 8 → Fin 64 → EReal) (kvs : Fin 8 → Fin 64 → Fin 64 → EReal) (r : Fin 1024) (h : Fin 8) (e : Fin 64) :
    attT Q ks kvs r (col h e)
      = Ideal.div one (∑ d : Fin 64, Q r (col h d) * ks h d) * ∑ d : Fin 64, Q r (col h d) * kvs h d e := by
  have e1 : (⟨(col h e).val / 64, by omega⟩ : Fin 8) = h := Fin.ext (col_div h e)
  have e2 : (⟨(col h e).val % 64, by omega⟩ : Fin 64) = e := Fin.ext (col_mod h e)
  show Ideal.div one (∑ d : Fin 64, Q r (col ⟨(col h e).val / 64, by omega⟩ d) * ks ⟨(col h e).val / 64, by omega⟩ d)
    * ∑ d : Fin 64, Q r (col ⟨(col h e).val / 64, by omega⟩ d) * kvs ⟨(col h e).val / 64, by omega⟩ d ⟨(col h e).val % 64, by omega⟩ = _
  rw [e1, e2]

def resT (Y : Tile) (ks0 : Fin 8 → Fin 64 → EReal) (kvs0 : Fin 8 → Fin 64 → Fin 64 → EReal)
    (ks1 : Fin 8 → Fin 64 → EReal) (kvs1 : Fin 8 → Fin 64 → Fin 64 → EReal) : Tile :=
  fun r j => softT Y r j + half * (attT (softT Y) ks0 kvs0 r j + attT (softT Y) ks1 kvs1 r j)

theorem outT_eq (X : Tile) (WqT : Fin 512 → Fin 512 → EReal) (bq : Bias) (ks0 : Fin 8 → Fin 64 → EReal) (kvs0 : Fin 8 → Fin 64 → Fin 64 → EReal)
    (ks1 : Fin 8 → Fin 64 → EReal) (kvs1 : Fin 8 → Fin 64 → Fin 64 → EReal) (WoT : Fin 512 → Fin 512 → EReal) (bo : Bias) :
    outT X WqT bq ks0 kvs0 ks1 kvs1 WoT bo = linT (resT (linT X WqT bq) ks0 kvs0 ks1 kvs1) WoT bo := rfl

theorem pay2_apply (x0 : Vec Ideal S1x1024x512 .f32) (x1 : Vec Ideal S512x512 .bf16) (x2 : Vec Ideal S512 .f32) (r : Fin 1024) (j : Fin 512) :
    k1_pay2 x0 x1 x2 (ix2 r j) = linT (tile3 x0) (mat2 x1) (bias x2) r j := by
  rw [pay2_eq, linV_apply]
  refine congrArg (· + x2 (ix1 j)) (Finset.sum_congr rfl fun e _ => congrArg (· * x1 (ix2 e j)) ?_)
  exact shapeCast_1ab_ab_apply x0 shapeCasts_S1x1024x512_S1024x512 r e

theorem pay1_apply (v : FVec Ideal S1024x512 .f32) (r : Fin 1024) (o : Fin 512) :
    k1_pay1 v (ix3 (0 : Fin 1) r o) = v (ix2 r o) :=
  shapeCast_ab_1ab_apply v shapeCasts_S1024x512_S1x1024x512 0 r o

theorem hdV_apply (v9 : FVec Ideal S1024x512 .f32) (Y : Tile) (hY : ∀ r j, v9 (ix2 r j) = Y r j)
    (h : Fin 8) (off : Nat) (hoff : off = 64 * h.val) (hs : S1024x512.Slices ![0, off] S1024x64)
    (ks0 ks1 : Vec Ideal S1x1x64 .f32) (kv0 kv1 : Vec Ideal S1x1x64x64 .f32)
    (K0 K1 : Fin 8 → Fin 64 → EReal) (KV0 KV1 : Fin 8 → Fin 64 → Fin 64 → EReal)
    (hk0 : ∀ d, ks0 (ix3 (0 : Fin 1) (0 : Fin 1) d) = K0 h d) (hk1 : ∀ d, ks1 (ix3 (0 : Fin 1) (0 : Fin 1) d) = K1 h d)
    (hkv0 : ∀ d e, kv0 (ix4 (0 : Fin 1) (0 : Fin 1) d e) = KV0 h d e) (hkv1 : ∀ d e, kv1 (ix4 (0 : Fin 1) (0 : Fin 1) d e) = KV1 h d e)
    (r : Fin 1024) (e : Fin 64) :
    resV (smV (extractStridedSlice S1024x64 ![0, off] v9 hs)) ks0 ks1 kv0 kv1 (ix2 r e) = resT Y K0 KV0 K1 KV1 r (col h e) := by
  have hq : ∀ k : Fin 64, smV (extractStridedSlice S1024x64 ![0, off] v9 hs) (ix2 r k) = softT Y r (col h k) := fun k => by
    rw [smV_apply, softT_at_col]
    refine congrArg (fun z => smax z k) (funext fun d' => ?_)
    rw [slice_col_apply v9 h off hoff hs, hY]
  rw [resV_apply]
  simp only [hq, hk0, hk1, hkv0, hkv1]
  show _ = softT Y r (col h e) + half * (attT (softT Y) K0 KV0 r (col h e) + attT (softT Y) K1 KV1 r (col h e))
  rw [attT_at_col, attT_at_col]

theorem out1_9_apply (c : Dev nD) (i : grid1.Coords) (arg2 : Memref sig .tc .vmem S1x1024x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S1x8x64x64 .f32) (harg5 : arg5.IsWhole) (arg6 : Memref sig .tc .vmem S1x8x64 .f32) (harg6 : arg6.IsWhole) (arg7 : Memref sig .tc .vmem S1x8x64x64 .f32) (harg7 : arg7.IsWhole) (arg8 : Memref sig .tc .vmem S1x8x64 .f32) (harg8 : arg8.IsWhole) (arg9 : Memref sig .tc .vmem S512x512 .bf16) (harg9 : arg9.IsWhole) (arg10 : Memref sig .tc .vmem S512 .f32) (harg10 : arg10.IsWhole) (arg11 : Memref sig .tc .vmem S1x1024x512 .f32) (harg11 : arg11.IsWhole)
    (x0 : Vec Ideal S1x1024x512 .f32) (x1 : Vec Ideal S512x512 .bf16) (x2 : Vec Ideal S512 .f32) (x3 : Vec Ideal S1x8x64x64 .f32) (x4 : Vec Ideal S1x8x64 .f32) (x5 : Vec Ideal S1x8x64x64 .f32) (x6 : Vec Ideal S1x8x64 .f32) (x7 : Vec Ideal S512x512 .bf16) (x8 : Vec Ideal S512 .f32) (r : Fin 1024) (o : Fin 512) :
    out1_9 (F := Ideal) c i arg2 harg2 arg3 harg3 arg4 harg4 arg5 harg5 arg6 harg6 arg7 harg7 arg8 harg8 arg9 harg9 arg10 harg10 arg11 harg11 x0 x1 x2 x3 x4 x5 x6 x7 x8 (ix3 0 r o)
      = outT (tile3 x0) (mat2 x1) (bias x2) (ksB x4) (kvB x3) (ksB x6) (kvB x5) (mat2 x7) (bias x8) r o := by
  rw [out1_9_eq, outT_eq]
  unfold bodyV
  rw [pay1_apply, linV_apply]
  show _ = (∑ e : Fin 512, resT (linT (tile3 x0) (mat2 x1) (bias x2)) (ksB x4) (kvB x3) (ksB x6) (kvB x5) r e * x7 (ix2 e o)) + x8 (ix1 o)
  refine congrArg (· + x8 (ix1 o)) (Finset.sum_congr rfl fun e _ => congrArg (· * x7 (ix2 e o)) ?_)
  obtain ⟨h, d, rfl⟩ : ∃ (h : Fin 8) (d : Fin 64), e = col h d := ⟨_, _, (col_div_mod e).symm⟩
  refine (concat8_apply (headsV (k1_pay2 x0 x1 x2) x3 x4 x5 x6) _ r h d).trans ?_
  unfold headsV
  exact hdV_apply (k1_pay2 x0 x1 x2) _ (pay2_apply x0 x1 x2) h (64 * h.val) rfl (hsl h) _ _ _ _ (ksB x4) (ksB x6) (kvB x3) (kvB x5)
    (fun d => ld_ks x4 h.val h.isLt (inbS h) d) (fun d => ld_ks x6 h.val h.isLt (inbS h) d)
    (fun d e => ld_kv x3 h.val h.isLt (inbV h) d e) (fun d e => ld_kv x5 h.val h.isLt (inbV h) d e) r d

end Final

end Cert.KernelIdeal.Val1

end
-- ==== Proof.KI.Val1Arr.lean ====
import proofs.«425839_j19628000543020_3_alg».proof.Proof.KI.Val1Pt
import proofs.«425839_j19628000543020_3_alg».proof.Proof.SpecLemmas
import Idealize.ShloMosaic.Lib.Pipeline.Value

set_option maxRecDepth 16384

noncomputable section

namespace Cert.KernelIdeal.Val1

open Cert.KernelIdeal Cert.KernelIdeal.Gen Cert.KernelIdeal.Hand Cert.Spec
open Idealize.ShloMosaic Idealize.ShloMosaic.TcCoe Idealize.ShloMosaic.ValueIdx
open Idealize.ShloMosaic.Pipeline (Dat)

theorem outT_eq_pass2 (X : Tile) (WqT WoT : Fin 512 → Fin 512 → EReal) (bqT boT : Bias)
    (k0 k1 : Fin 8 → Fin 64 → EReal) (v0 v1 : Fin 8 → Fin 64 → Fin 64 → EReal)
    (query : Act) (Wq Wo : Mat) (bq bo : Bias) (ks0 ks1 : Fin 4 → Fin 8 → Fin 64 → EReal)
    (kvs0 kvs1 : Fin 4 → Fin 8 → Fin 64 → Fin 64 → EReal) (n : Fin 4) (l : Fin 8192) (r : Fin 1024)
    (hX : ∀ e, X r e = query n l e) (hWq : ∀ e o, WqT e o = Wq o e) (hWo : ∀ e o, WoT e o = Wo o e)
    (hbq : ∀ o, bqT o = bq o) (hbo : ∀ o, boT o = bo o)
    (hk0 : ∀ h d, k0 h d = ks0 n h d) (hv0 : ∀ h d e, v0 h d e = kvs0 n h d e)
    (hk1 : ∀ h d, k1 h d = ks1 n h d) (hv1 : ∀ h d e, v1 h d e = kvs1 n h d e) (o : Fin 512) :
    outT X WqT bqT k0 v0 k1 v1 WoT boT r o = pass2 query Wq bq ks0 kvs0 ks1 kvs1 Wo bo n l o := by

  have hQ : ∀ h d, softT (linT X WqT bqT) r (col h d) = heads query Wq bq n l h d := by
    intro h d
    rw [softT_at_col]
    unfold heads lin linT
    simp only [hX, hWq, hbq]

  have key : ∀ h e, softT (linT X WqT bqT) r (col h e)
        + half * (attT (softT (linT X WqT bqT)) k0 v0 r (col h e) + attT (softT (linT X WqT bqT)) k1 v1 r (col h e))
      = resH (heads query Wq bq) (att (heads query Wq bq) ks0 kvs0) (att (heads query Wq bq) ks1 kvs1) n l h e := by
    intro h e
    rw [attT_at_col, attT_at_col]
    unfold resH att
    simp only [hQ, hk0, hv0, hk1, hv1]
  unfold outT pass2
  show (∑ e : Fin 512, (softT (linT X WqT bqT) r e
        + half * (attT (softT (linT X WqT bqT)) k0 v0 r e + attT (softT (linT X WqT bqT)) k1 v1 r e)) * WoT e o) + boT o
      = (∑ e : Fin 512, merge (resH (heads query Wq bq) (att (heads query Wq bq) ks0 kvs0) (att (heads query Wq bq) ks1 kvs1)) n l e * Wo o e) + bo o
  rw [hbo]
  congr 1
  refine Finset.sum_congr rfl fun e _ => ?_
  rw [hWo]
  congr 1
  have hk := key ⟨e.val / 64, by have := e.isLt; omega⟩ ⟨e.val % 64, by omega⟩
  rw [col_div_mod e] at hk
  exact hk

section
variable (V : (c : Dev nD) → (b : Ref sig .tc) → Buf (Elt Ideal) ((c : Thread nD τ).loc b))

abbrev G (c : Dev nD) : S4x8192x512.Idx → EReal := fun i =>
  pass2 (act (V c main_arg0)) (matT (V c main_v1)) (bias (V c main_arg4)) (ks3 (V c main_v47)) (kv4 (V c main_v29))
    (ks3 (V c main_v48)) (kv4 (V c main_v46)) (matT (V c main_v11)) (bias (V c main_arg14)) (i 0) (i 1) (i 2)

theorem idx_facts : ∀ t : Fin cfg1.N,
    win1_9.index t (0 : Fin 3) = t.val / 8 ∧ win1_9.index t (1 : Fin 3) = t.val % 8 ∧ win1_9.index t (2 : Fin 3) = 0
    ∧ win1_0.index t (0 : Fin 3) = t.val / 8 ∧ win1_0.index t (1 : Fin 3) = t.val % 8 ∧ win1_0.index t (2 : Fin 3) = 0
    ∧ win1_1.index t (0 : Fin 2) = 0 ∧ win1_1.index t (1 : Fin 2) = 0
    ∧ win1_2.index t (0 : Fin 1) = 0
    ∧ win1_3.index t (0 : Fin 4) = t.val / 8 ∧ win1_3.index t (1 : Fin 4) = 0 ∧ win1_3.index t (2 : Fin 4) = 0 ∧ win1_3.index t (3 : Fin 4) = 0
    ∧ win1_4.index t (0 : Fin 3) = t.val / 8 ∧ win1_4.index t (1 : Fin 3) = 0 ∧ win1_4.index t (2 : Fin 3) = 0
    ∧ win1_5.index t (0 : Fin 4) = t.val / 8 ∧ win1_5.index t (1 : Fin 4) = 0 ∧ win1_5.index t (2 : Fin 4) = 0 ∧ win1_5.index t (3 : Fin 4) = 0
    ∧ win1_6.index t (0 : Fin 3) = t.val / 8 ∧ win1_6.index t (1 : Fin 3) = 0 ∧ win1_6.index t (2 : Fin 3) = 0
    ∧ win1_7.index t (0 : Fin 2) = 0 ∧ win1_7.index t (1 : Fin 2) = 0
    ∧ win1_8.index t (0 : Fin 1) = 0 :=
  (by decide +kernel : ∀ t : Fin grid1.N, _)

theorem blk0_apply (c : Dev nD) (t : Fin cfg1.N) (r : Fin 1024) (e : Fin 512) (n : Fin 4) (l : Fin 8192)
    (hn : n.val = t.val / 8) (hl : l.val = 1024 * (t.val % 8) + r.val) :
    tile3 (iblk1 V c 0 t) r e = act (V c main_arg0) n l e := by
  obtain ⟨-, -, -, e0, e1, e2, -⟩ := idx_facts t
  unfold iblk1
  show V c main_arg0 (((cfg1.win 0).blk t).view.emb (ix3 0 r e)) = V c main_arg0 (ix3 n l e)
  congr 1
  funext a; apply Fin.ext
  match a with
  | ⟨0, _⟩ => show win1_0.index t (0 : Fin 3) * 1 + 1 * 0 = n.val; omega
  | ⟨1, _⟩ => show win1_0.index t (1 : Fin 3) * 1024 + 1 * r.val = l.val; omega
  | ⟨2, _⟩ => show win1_0.index t (2 : Fin 3) * 512 + 1 * e.val = e.val; omega

theorem blk1_apply (c : Dev nD) (t : Fin cfg1.N) (e o : Fin 512) :
    mat2 (iblk1 V c 1 t) e o = matT (V c main_v1) o e := by
  obtain ⟨-, -, -, -, -, -, e0, e1, -⟩ := idx_facts t
  unfold iblk1
  show V c main_v1 (((cfg1.win 1).blk t).view.emb (ix2 e o)) = V c main_v1 (ix2 e o)
  congr 1
  funext a; apply Fin.ext
  match a with
  | ⟨0, _⟩ => show win1_1.index t (0 : Fin 2) * 512 + 1 * e.val = e.val; omega
  | ⟨1, _⟩ => show win1_1.index t (1 : Fin 2) * 512 + 1 * o.val = o.val; omega

theorem blk2_apply (c : Dev nD) (t : Fin cfg1.N) (o : Fin 512) :
    bias (iblk1 V c 2 t) o = bias (V c main_arg4) o := by
  obtain ⟨-, -, -, -, -, -, -, -, e0, -⟩ := idx_facts t
  unfold iblk1
  show V c main_arg4 (((cfg1.win 2).blk t).view.emb (ix1 o)) = V c main_arg4 (ix1 o)
  congr 1
  funext a; apply Fin.ext
  match a with
  | ⟨0, _⟩ => show win1_2.index t (0 : Fin 1) * 512 + 1 * o.val = o.val; omega

theorem blk3_apply (c : Dev nD) (t : Fin cfg1.N) (n : Fin 4) (hn : n.val = t.val / 8) (h : Fin 8) (d e : Fin 64) :
    kvB (iblk1 V c 3 t) h d e = kv4 (V c main_v29) n h d e := by
  obtain ⟨-, -, -, -, -, -, -, -, -, e0, e1, e2, e3, -⟩ := idx_facts t
  unfold iblk1
  show V c main_v29 (((cfg1.win 3).blk t).view.emb (ix4 0 h d e)) = V c main_v29 (ix4 n h d e)
  congr 1
  funext a; apply Fin.ext
  match a with
  | ⟨0, _⟩ => show win1_3.index t (0 : Fin 4) * 1 + 1 * 0 = n.val; omega
  | ⟨1, _⟩ => show win1_3.index t (1 : Fin 4) * 8 + 1 * h.val = h.val; omega
  | ⟨2, _⟩ => show win1_3.index t (2 : Fin 4) * 64 + 1 * d.val = d.val; omega
  | ⟨3, _⟩ => show win1_3.index t (3 : Fin 4) * 64 + 1 * e.val = e.val; omega

theorem blk4_apply (c : Dev nD) (t : Fin cfg1.N) (n : Fin 4) (hn : n.val = t.val / 8) (h : Fin 8) (d : Fin 64) :
    ksB (iblk1 V c 4 t) h d = ks3 (V c main_v47) n h d := by
  obtain ⟨-, -, -, -, -, -, -, -, -, -, -, -, -, e0, e1, e2, -⟩ := idx_facts t
  unfold iblk1
  show V c main_v47 (((cfg1.win 4).blk t).view.emb (ix3 0 h d)) = V c main_v47 (ix3 n h d)
  congr 1
  funext a; apply Fin.ext
  match a with
  | ⟨0, _⟩ => show win1_4.index t (0 : Fin 3) * 1 + 1 * 0 = n.val; omega
  | ⟨1, _⟩ => show win1_4.index t (1 : Fin 3) * 8 + 1 * h.val = h.val; omega
  | ⟨2, _⟩ => show win1_4.index t (2 : Fin 3) * 64 + 1 * d.val = d.val; omega

theorem blk5_apply (c : Dev nD) (t : Fin cfg1.N) (n : Fin 4) (hn : n.val = t.val / 8) (h : Fin 8) (d e : Fin 64) :
    kvB (iblk1 V c 5 t) h d e = kv4 (V c main_v46) n h d e := by
  obtain ⟨-, -, -, -, -, -, -, -, -, -, -, -, -, -, -, -, e0, e1, e2, e3, -⟩ := idx_facts t
  unfold iblk1
  show V c main_v46 (((cfg1.win 5).blk t).view.emb (ix4 0 h d e)) = V c main_v46 (ix4 n h d e)
  congr 1
  funext a; apply Fin.ext
  match a with
  | ⟨0, _⟩ => show win1_5.index t (0 : Fin 4) * 1 + 1 * 0 = n.val; omega
  | ⟨1, _⟩ => show win1_5.index t (1 : Fin 4) * 8 + 1 * h.val = h.val; omega
  | ⟨2, _⟩ => show win1_5.index t (2 : Fin 4) * 64 + 1 * d.val = d.val; omega
  | ⟨3, _⟩ => show win1_5.index t (3 : Fin 4) * 64 + 1 * e.val = e.val; omega

theorem blk6_apply (c : Dev nD) (t : Fin cfg1.N) (n : Fin 4) (hn : n.val = t.val / 8) (h : Fin 8) (d : Fin 64) :
    ksB (iblk1 V c 6 t) h d = ks3 (V c main_v48) n h d := by
  obtain ⟨-, -, -, -, -, -, -, -, -, -, -, -, -, -, -, -, -, -, -, -, e0, e1, e2, -⟩ := idx_facts t
  unfold iblk1
  show V c main_v48 (((cfg1.win 6).blk t).view.emb (ix3 0 h d)) = V c main_v48 (ix3 n h d)
  congr 1
  funext a; apply Fin.ext
  match a with
  | ⟨0, _⟩ => show win1_6.index t (0 : Fin 3) * 1 + 1 * 0 = n.val; omega
  | ⟨1, _⟩ => show win1_6.index t (1 : Fin 3) * 8 + 1 * h.val = h.val; omega
  | ⟨2, _⟩ => show win1_6.index t (2 : Fin 3) * 64 + 1 * d.val = d.val; omega

theorem blk7_apply (c : Dev nD) (t : Fin cfg1.N) (e o : Fin 512) :
    mat2 (iblk1 V c 7 t) e o = matT (V c main_v11) o e := by
  obtain ⟨-, -, -, -, -, -, -, -, -, -, -, -, -, -, -, -, -, -, -, -, -, -, -, e0, e1, -⟩ := idx_facts t
  unfold iblk1
  show V c main_v11 (((cfg1.win 7).blk t).view.emb (ix2 e o)) = V c main_v11 (ix2 e o)
  congr 1
  funext a; apply Fin.ext
  match a with
  | ⟨0, _⟩ => show win1_7.index t (0 : Fin 2) * 512 + 1 * e.val = e.val; omega
  | ⟨1, _⟩ => show win1_7.index t (1 : Fin 2) * 512 + 1 * o.val = o.val; omega

theorem blk8_apply (c : Dev nD) (t : Fin cfg1.N) (o : Fin 512) :
    bias (iblk1 V c 8 t) o = bias (V c main_arg14) o := by
  obtain ⟨-, -, -, -, -, -, -, -, -, -, -, -, -, -, -, -, -, -, -, -, -, -, -, -, -, e0⟩ := idx_facts t
  unfold iblk1
  show V c main_arg14 (((cfg1.win 8).blk t).view.emb (ix1 o)) = V c main_arg14 (ix1 o)
  congr 1
  funext a; apply Fin.ext
  match a with
  | ⟨0, _⟩ => show win1_8.index t (0 : Fin 1) * 512 + 1 * o.val = o.val; omega

theorem flushed_eq (c : Dev nD) (t : Fin cfg1.N) :
    (dat1 (F := Ideal) V c).flushed 9 t = ((cfg1.win 9).blk t).view.read (Elt Ideal) (G V c) := by
  show (cfg1.win 9).cut (grid1.coords t) ((dat1 V c).after 9 t) = _
  rw [after1_9]
  obtain ⟨e0, e1, e2, -⟩ := idx_facts t
  have ht : t.val < 32 := lt_of_lt_of_eq t.isLt N_1
  funext j
  obtain ⟨a, r, o, rfl⟩ : ∃ (a : Fin 1) (r : Fin 1024) (o : Fin 512), j = ix3 a r o := ⟨j 0, j 1, j 2, eq_ix3 j⟩
  obtain rfl : a = 0 := Fin.ext (by omega)
  let n : Fin 4 := ⟨t.val / 8, by omega⟩
  let l : Fin 8192 := ⟨1024 * (t.val % 8) + r.val, by omega⟩
  refine (out1_9_apply c _ _ _ _ _ _ _ _ _ _ _ _ _ _ _ _ _ _ _ _ _ _ _ _ _ _ _ _ _ _ r o).trans ?_
  refine (outT_eq_pass2 _ _ _ _ _ _ _ _ _ (act (V c main_arg0)) (matT (V c main_v1)) (matT (V c main_v11))
    (bias (V c main_arg4)) (bias (V c main_arg14)) (ks3 (V c main_v47)) (ks3 (V c main_v48)) (kv4 (V c main_v29))
    (kv4 (V c main_v46)) n l r (fun e => blk0_apply V c t r e n l rfl rfl) (blk1_apply V c t) (blk7_apply V c t)
    (blk2_apply V c t) (blk8_apply V c t) (blk4_apply V c t n rfl) (blk3_apply V c t n rfl) (blk6_apply V c t n rfl)
    (blk5_apply V c t n rfl) o).trans ?_
  show G V c (ix3 n l o) = G V c (((cfg1.win 9).blk t).view.emb (ix3 0 r o))
  congr 1
  funext a; apply Fin.ext
  match a with
  | ⟨0, _⟩ => show t.val / 8 = win1_9.index t (0 : Fin 3) * 1 + 1 * 0; omega
  | ⟨1, _⟩ => show 1024 * (t.val % 8) + r.val = win1_9.index t (1 : Fin 3) * 1024 + 1 * r.val; omega
  | ⟨2, _⟩ => show o.val = win1_9.index t (2 : Fin 3) * 512 + 1 * o.val; omega

theorem mem_blk (t : Fin cfg1.N) (i : S4x8192x512.Idx) :
    i ∈ ((cfg1.win 9).blk t).view.set ↔ ∀ a : Fin 3, win1_9.index t a * S1x1024x512.size a ≤ (i a).val
      ∧ (i a).val < win1_9.index t a * S1x1024x512.size a + S1x1024x512.size a := by
  show i ∈ ((View.whole main_v49).slice (win1_9.rect t)).set ↔ _
  rw [View.set_slice_whole, Rect.mem_set_unit]
  exact Iff.rfl

theorem cover (i : S4x8192x512.Idx) :
    ∃ t : Fin cfg1.N, (cfg1.win 9).flush t = true ∧ i ∈ ((cfg1.win 9).blk t).view.set := by
  have h0 : (i 0).val < 4 := (i 0).isLt
  have h1 : (i 1).val < 8192 := (i 1).isLt
  have h2 : (i 2).val < 512 := (i 2).isLt
  have hN : grid1.N = 32 := N_1
  let t : Fin cfg1.N := ⟨8 * (i 0).val + (i 1).val / 1024, by show _ < grid1.N; omega⟩
  have ht : t.val = 8 * (i 0).val + (i 1).val / 1024 := rfl
  obtain ⟨e0, e1, e2, -⟩ := idx_facts t
  refine ⟨t, flush1_9 t, ?_⟩
  rw [mem_blk]
  intro a
  match a with
  | ⟨0, _⟩ =>
    show win1_9.index t (0 : Fin 3) * 1 ≤ (i 0).val ∧ (i 0).val < win1_9.index t (0 : Fin 3) * 1 + 1
    omega
  | ⟨1, _⟩ =>
    show win1_9.index t (1 : Fin 3) * 1024 ≤ (i 1).val ∧ (i 1).val < win1_9.index t (1 : Fin 3) * 1024 + 1024
    omega
  | ⟨2, _⟩ =>
    show win1_9.index t (2 : Fin 3) * 512 ≤ (i 2).val ∧ (i 2).val < win1_9.index t (2 : Fin 3) * 512 + 512
    omega

theorem final (c : Dev nD) : (dat1 (F := Ideal) V c).arrAt 9 cfg1.N = G V c :=
  (dat1 (F := Ideal) V c).arrAt_eq_of_cover 9 (G V c) (fun t _ => flushed_eq V c t) cover

theorem out_arr (c : Dev nD) (n : Fin 4) (l : Fin 8192) (o : Fin 512) :
    (dat1 (F := Ideal) V c).arrAt 9 cfg1.N (ix3 n l o)
      = pass2 (act (V c main_arg0)) (matT (V c main_v1)) (bias (V c main_arg4)) (ks3 (V c main_v47)) (kv4 (V c main_v29))
          (ks3 (V c main_v48)) (kv4 (V c main_v46)) (matT (V c main_v11)) (bias (V c main_arg14)) n l o :=
  congrFun (final V c) (ix3 n l o)

end

end Cert.KernelIdeal.Val1

end
-- ==== Proof.KI.Final.lean ====
import proofs.«425839_j19628000543020_3_alg».proof.Proof.KI.Run
import proofs.«425839_j19628000543020_3_alg».proof.Proof.HostVal
import proofs.«425839_j19628000543020_3_alg».proof.Proof.KI.Val0Arr
import proofs.«425839_j19628000543020_3_alg».proof.Proof.KI.Val1Arr

set_option maxRecDepth 16384

noncomputable section

namespace Cert.KernelIdeal.Final

open Cert.KernelIdeal Cert.KernelIdeal.Gen Cert.KernelIdeal.Hand Cert.Spec
open Idealize.ShloMosaic Idealize.ShloMosaic.TcCoe Idealize.ShloMosaic.ValueIdx
open Idealize.ShloMosaic.Pipeline (Dat)

theorem ksum_col (K : Fin 4 → Fin 8192 → Fin 8 → Fin 64 → EReal) (n : Fin 4) (h : Fin 8) (d : Fin 64) :
    (∑ l : Fin 8192, K n l ⟨(col h d).val / 64, by omega⟩ ⟨(col h d).val % 64, by omega⟩) = ksum K n h d := by
  unfold ksum
  refine Finset.sum_congr rfl fun l _ => ?_
  congr 1 <;> exact Fin.ext (by first | exact col_div h d | exact col_mod h d)

theorem kv_col (K Vv : Fin 4 → Fin 8192 → Fin 8 → Fin 64 → EReal) (n : Fin 4) (h : Fin 8) (d e : Fin 64) :
    (∑ l : Fin 8192, K n l ⟨(col h d).val / 64, by omega⟩ ⟨(col h d).val % 64, by omega⟩
        * Vv n l ⟨(col h e).val / 64, by omega⟩ ⟨(col h e).val % 64, by omega⟩) = kv K Vv n h d e := by
  unfold kv
  refine Finset.sum_congr rfl fun l _ => ?_
  congr 2 <;> exact Fin.ext (by first | exact col_div h d | exact col_mod h d | exact col_div h e | exact col_mod h e)

variable (m : (ℓ : Loc nD τ sig) → Buf (Elt Ideal) ℓ) (ρ : Dev nD → PrngReg)

theorem X1_arg (c : Dev nD) (r : Ref sig .tc) (h : r ∉ hostOps0_W) : X1 m ρ c r = m ((c : Thread nD τ).loc r) :=
  StableHlo.after_of_writes_sub hostOps0 _ hostOps0_writes (r := r) h

theorem X3_of (c : Dev nD) (r : Ref sig .tc) (h1 : r ∉ hostOps1_W) (h0 : ∀ w, Pipeline.arrRef spec0 w ≠ r) :
    X3 m ρ c r = X1 m ρ c r :=
  (StableHlo.after_of_writes_sub hostOps1 _ hostOps1_writes (r := r) h1).trans (W2_of_ne m ρ c r h0)

theorem X3_arg0 (c : Dev nD) : X3 m ρ c main_arg0 = m ((c : Thread nD τ).loc main_arg0) :=
  (X3_of m ρ c main_arg0 (by decide) (by decide)).trans (X1_arg m ρ c main_arg0 (by decide))
theorem X3_arg4 (c : Dev nD) : X3 m ρ c main_arg4 = m ((c : Thread nD τ).loc main_arg4) :=
  (X3_of m ρ c main_arg4 (by decide) (by decide)).trans (X1_arg m ρ c main_arg4 (by decide))
theorem X3_arg14 (c : Dev nD) : X3 m ρ c main_arg14 = m ((c : Thread nD τ).loc main_arg14) :=
  (X3_of m ρ c main_arg14 (by decide) (by decide)).trans (X1_arg m ρ c main_arg14 (by decide))

theorem wq (c : Dev nD) : matT (X3 m ρ c main_v1) = mat (m ((c : Thread nD τ).loc main_arg3)) := by
  rw [X3_of m ρ c main_v1 (by decide) (by decide)]; exact HostVal.after0_v1 (W0 m ρ c)
theorem wo (c : Dev nD) : matT (X3 m ρ c main_v11) = mat (m ((c : Thread nD τ).loc main_arg13)) := by
  rw [X3_of m ρ c main_v11 (by decide) (by decide)]; exact HostVal.after0_v11 (W0 m ρ c)
theorem wk0 (c : Dev nD) : matT (X1 m ρ c main_v3) = mat (m ((c : Thread nD τ).loc main_arg5)) := HostVal.after0_v3 (W0 m ρ c)
theorem wv0 (c : Dev nD) : matT (X1 m ρ c main_v5) = mat (m ((c : Thread nD τ).loc main_arg7)) := HostVal.after0_v5 (W0 m ρ c)
theorem wk1 (c : Dev nD) : matT (X1 m ρ c main_v7) = mat (m ((c : Thread nD τ).loc main_arg9)) := HostVal.after0_v7 (W0 m ρ c)
theorem wv1 (c : Dev nD) : matT (X1 m ρ c main_v9) = mat (m ((c : Thread nD τ).loc main_arg11)) := HostVal.after0_v9 (W0 m ρ c)

theorem ks0_eq (c : Dev nD) : ks3 (X3 m ρ c main_v47)
    = ksum (heads (act (m ((c : Thread nD τ).loc main_arg1))) (mat (m ((c : Thread nD τ).loc main_arg5))) (bias (m ((c : Thread nD τ).loc main_arg6)))) := by
  funext n h d
  have e := Val0.ksum0_arr (X1 m ρ) c n (col h d)
  rw [wk0 m ρ c, X1_arg m ρ c main_arg1 (by decide), X1_arg m ρ c main_arg6 (by decide)] at e
  exact (HostVal.after1_v47 (W2 m ρ c) n h d).trans ((congrFun (W2_arr m ρ c 11) _).trans (e.trans (ksum_col _ n h d)))
theorem ks1_eq (c : Dev nD) : ks3 (X3 m ρ c main_v48)
    = ksum (heads (act (m ((c : Thread nD τ).loc main_arg2))) (mat (m ((c : Thread nD τ).loc main_arg9))) (bias (m ((c : Thread nD τ).loc main_arg10)))) := by
  funext n h d
  have e := Val0.ksum1_arr (X1 m ρ) c n (col h d)
  rw [wk1 m ρ c, X1_arg m ρ c main_arg2 (by decide), X1_arg m ρ c main_arg10 (by decide)] at e
  exact (HostVal.after1_v48 (W2 m ρ c) n h d).trans ((congrFun (W2_arr m ρ c 13) _).trans (e.trans (ksum_col _ n h d)))

theorem kv0_eq (c : Dev nD) : kv4 (X3 m ρ c main_v29)
    = kv (heads (act (m ((c : Thread nD τ).loc main_arg1))) (mat (m ((c : Thread nD τ).loc main_arg5))) (bias (m ((c : Thread nD τ).loc main_arg6))))
         (vals (act (m ((c : Thread nD τ).loc main_arg1))) (mat (m ((c : Thread nD τ).loc main_arg7))) (bias (m ((c : Thread nD τ).loc main_arg8)))) := by
  funext n h d e'
  have e := Val0.kv0_arr (X1 m ρ) c n (col h d) (col h e')
  rw [wk0 m ρ c, wv0 m ρ c, X1_arg m ρ c main_arg1 (by decide), X1_arg m ρ c main_arg6 (by decide), X1_arg m ρ c main_arg8 (by decide)] at e
  exact (HostVal.after1_v29 (W2 m ρ c) n h d e').trans ((congrFun (W2_arr m ρ c 10) _).trans (e.trans (kv_col _ _ n h d e')))
theorem kv1_eq (c : Dev nD) : kv4 (X3 m ρ c main_v46)
    = kv (heads (act (m ((c : Thread nD τ).loc main_arg2))) (mat (m ((c : Thread nD τ).loc main_arg9))) (bias (m ((c : Thread nD τ).loc main_arg10))))
         (vals (act (m ((c : Thread nD τ).loc main_arg2))) (mat (m ((c : Thread nD τ).loc main_arg11))) (bias (m ((c : Thread nD τ).loc main_arg12)))) := by
  funext n h d e'
  have e := Val0.kv1_arr (X1 m ρ) c n (col h d) (col h e')
  rw [wk1 m ρ c, wv1 m ρ c, X1_arg m ρ c main_arg2 (by decide), X1_arg m ρ c main_arg10 (by decide), X1_arg m ρ c main_arg12 (by decide)] at e
  exact (HostVal.after1_v46 (W2 m ρ c) n h d e').trans ((congrFun (W2_arr m ρ c 12) _).trans (e.trans (kv_col _ _ n h d e')))

set_option maxHeartbeats 1000000 in
theorem kernel_value_arr (c : Dev nD) :
    (dat1 (F := Ideal) (X3 m ρ) c).arrAt 9 cfg1.N
    = fun i : S4x8192x512.Idx => result (act (m ((c : Thread nD τ).loc main_arg0))) (act (m ((c : Thread nD τ).loc main_arg1))) (act (m ((c : Thread nD τ).loc main_arg2))) (mat (m ((c : Thread nD τ).loc main_arg3))) (bias (m ((c : Thread nD τ).loc main_arg4))) (mat (m ((c : Thread nD τ).loc main_arg5))) (bias (m ((c : Thread nD τ).loc main_arg6))) (mat (m ((c : Thread nD τ).loc main_arg7))) (bias (m ((c : Thread nD τ).loc main_arg8))) (mat (m ((c : Thread nD τ).loc main_arg9))) (bias (m ((c : Thread nD τ).loc main_arg10))) (mat (m ((c : Thread nD τ).loc main_arg11))) (bias (m ((c : Thread nD τ).loc main_arg12))) (mat (m ((c : Thread nD τ).loc main_arg13))) (bias (m ((c : Thread nD τ).loc main_arg14))) (i 0) (i 1) (i 2) := by
  funext i
  obtain ⟨n, l, o, rfl⟩ : ∃ (n : Fin 4) (l : Fin 8192) (o : Fin 512), i = ix3 n l o := ⟨i 0, i 1, i 2, eq_ix3 i⟩
  refine (Val1.out_arr (X3 m ρ) c n l o).trans ?_
  rw [result_eq_pass2, wq m ρ c, wo m ρ c, ks0_eq m ρ c, ks1_eq m ρ c, kv0_eq m ρ c, kv1_eq m ρ c,
    X3_arg0 m ρ c, X3_arg4 m ρ c, X3_arg14 m ρ c] <;> rfl

end Cert.KernelIdeal.Final

end
-- ==== Proof.RefValue.lean ====
import proofs.«425839_j19628000543020_3_alg».proof.Proof.Gen.ReferenceIdeal.Run
import proofs.«425839_j19628000543020_3_alg».proof.Proof.Gen.ReferenceIdeal.Read
import proofs.«425839_j19628000543020_3_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Spec (act mat bias)

theorem lidx_v0 (n : Fin 4) (l : Fin 8192) (o k : Fin 512) : lidx_main_v0 (ix3 n l o) k = ix3 n l k :=
  funext fun a => Fin.ext (by match a with | ⟨0, _⟩ => rfl | ⟨1, _⟩ => rfl | ⟨2, _⟩ => rfl)
theorem ridx_v0 (n : Fin 4) (l : Fin 8192) (o k : Fin 512) : ridx_main_v0 (ix3 n l o) k = ix2 o k :=
  funext fun a => Fin.ext (by match a with | ⟨0, _⟩ => rfl | ⟨1, _⟩ => rfl)
theorem idx_v1v2 (n : Fin 4) (l : Fin 8192) (o : Fin 512) : idx_main_v1 (idx_main_v2 (ix3 n l o)) = ix1 o :=
  funext fun a => Fin.ext (by match a with | ⟨0, _⟩ => rfl)

theorem v3_apply (X : FVec Ideal S4x8192x512 .f32) (W : FVec Ideal S512x512 .f32) (b : FVec Ideal S512 .f32)
    (n : Fin 4) (l : Fin 8192) (o : Fin 512) :
    val_main_v3 (F := Ideal) X W b (ix3 n l o) = Cert.Spec.lin (act X) (mat W) (bias b) n l o := by
  rw [val_main_v3_apply, val_main_v0_apply, val_main_v2_apply, val_main_v1_apply]
  simp only [lidx_v0, ridx_v0, idx_v1v2]
  rfl

theorem idx_v4v5 (n : Fin 4) (h : Fin 8) (l : Fin 8192) (d : Fin 64) :
    idx_main_v4 (idx_main_v5 (ix4 n h l d)) = ix3 n l (Cert.Spec.col h d) :=
  funext fun a => Fin.ext (by
    have h0 := n.isLt; have h1 := h.isLt; have h2 := l.isLt; have h3 := d.isLt
    match a with
    | ⟨0, _⟩ => show (((n.val * 8192 + l.val) * 8 + h.val) * 64 + d.val) / 4194304 = n.val; omega
    | ⟨1, _⟩ => show (((n.val * 8192 + l.val) * 8 + h.val) * 64 + d.val) / 512 % 8192 = l.val; omega
    | ⟨2, _⟩ => show (((n.val * 8192 + l.val) * 8 + h.val) * 64 + d.val) % 512 = 64 * h.val + d.val; omega)

theorem v5_apply (X : FVec Ideal S4x8192x512 .f32) (W : FVec Ideal S512x512 .f32) (b : FVec Ideal S512 .f32)
    (n : Fin 4) (h : Fin 8) (l : Fin 8192) (d : Fin 64) :
    val_main_v5 (F := Ideal) X W b (ix4 n h l d) = Cert.Spec.lin (act X) (mat W) (bias b) n l (Cert.Spec.col h d) := by
  rw [val_main_v5_apply, val_main_v4_apply, idx_v4v5, v3_apply]

theorem ofBits_ninf : Ideal.ofBits .f32 0xFF800000#32 = (⊥ : EReal) := by simp [Ideal.ofBits, Ideal.ieee]

theorem v6_apply (X : FVec Ideal S4x8192x512 .f32) (W : FVec Ideal S512x512 .f32) (b : FVec Ideal S512 .f32)
    (n : Fin 4) (h : Fin 8) (l : Fin 8192) :
    val_main_v6 (F := Ideal) X W b (ix3 n h l)
      = (Finset.univ : Finset (Fin 64)).fold max ⊥ (fun d => val_main_v5 (F := Ideal) X W b (ix4 n h l d)) := by
  unfold val_main_v6
  generalize val_main_v5 (F := Ideal) X W b = y
  have hr : S4x8x8192x64.Reduces [3] S4x8x8192 := by decide
  refine (Host.reduce_eq_fold_single (FloatOps.maximumf (F := Ideal) (φ := .f32)) (y : S4x8x8192x64.Idx → Ideal .f32)
    (val_main_cst (F := Ideal)) reducesTo_S4x8x8192x64_S4x8x8192_d3 hr h_S_ (ix3 n h l)).trans ?_
  show Finset.fold max (Ideal.ofBits .f32 0xFF800000#32) (fun d : Fin 64 => y (hr.lift (ix3 n h l) d)) (Finset.univ : Finset (Fin 64)) = _
  rw [ofBits_ninf]
  refine congrArg (fun f => Finset.fold max (⊥ : EReal) f (Finset.univ : Finset (Fin 64))) (funext fun d => congrArg y ?_)
  exact funext fun a => Fin.ext (by match a with | ⟨0, _⟩ => rfl | ⟨1, _⟩ => rfl | ⟨2, _⟩ => rfl | ⟨3, _⟩ => rfl)

theorem idx_v9v10 (n : Fin 4) (h : Fin 8) (l : Fin 8192) (d : Fin 64) :
    idx_main_v9 (idx_main_v10 (ix4 n h l d)) = ix3 n h l :=
  funext fun a => Fin.ext (by match a with | ⟨0, _⟩ => rfl | ⟨1, _⟩ => rfl | ⟨2, _⟩ => rfl)
theorem idx_v14v15 (n : Fin 4) (h : Fin 8) (l : Fin 8192) (d : Fin 64) :
    idx_main_v14 (idx_main_v15 (ix4 n h l d)) = ix3 n h l :=
  funext fun a => Fin.ext (by match a with | ⟨0, _⟩ => rfl | ⟨1, _⟩ => rfl | ⟨2, _⟩ => rfl)
theorem idx_v13 (n : Fin 4) (h : Fin 8) (l : Fin 8192) (k : Fin 64) :
    idx_main_v13 (ix3 n h l) k = ix4 n h l k :=
  funext fun a => Fin.ext (by match a with | ⟨0, _⟩ => rfl | ⟨1, _⟩ => rfl | ⟨2, _⟩ => rfl | ⟨3, _⟩ => rfl)

theorem v8_apply (X : FVec Ideal S4x8192x512 .f32) (W : FVec Ideal S512x512 .f32) (b : FVec Ideal S512 .f32)
    (n : Fin 4) (h : Fin 8) (l : Fin 8192) :
    val_main_v8 (F := Ideal) X W b (ix3 n h l)
      = Cert.Spec.lmax (fun d => val_main_v5 (F := Ideal) X W b (ix4 n h l d)) := by
  rw [val_main_v8_apply, val_main_v7_apply, val_main_cst_0_apply, v6_apply]
  show max (Ideal.ofBits .f32 0xFF800000#32) _ = _
  rw [ofBits_ninf]
  rfl

theorem v12_apply (X : FVec Ideal S4x8192x512 .f32) (W : FVec Ideal S512x512 .f32) (b : FVec Ideal S512 .f32)
    (n : Fin 4) (h : Fin 8) (l : Fin 8192) (d : Fin 64) :
    val_main_v12 (F := Ideal) X W b (ix4 n h l d)
      = Ideal.exp (val_main_v5 (F := Ideal) X W b (ix4 n h l d)
          - Cert.Spec.lmax (fun d' => val_main_v5 (F := Ideal) X W b (ix4 n h l d'))) := by
  rw [val_main_v12_apply, val_main_v11_apply, val_main_v10_apply, val_main_v9_apply, idx_v9v10, v8_apply]
  rfl

theorem v16_smax (X : FVec Ideal S4x8192x512 .f32) (W : FVec Ideal S512x512 .f32) (b : FVec Ideal S512 .f32)
    (n : Fin 4) (h : Fin 8) (l : Fin 8192) (d : Fin 64) :
    val_main_v16 (F := Ideal) X W b (ix4 n h l d)
      = Cert.Spec.smax (fun d' => val_main_v5 (F := Ideal) X W b (ix4 n h l d')) d := by
  rw [val_main_v16_apply, val_main_v15_apply, val_main_v14_apply, idx_v14v15, val_main_v13_apply, val_main_cst_1_apply]
  simp only [idx_v13, v12_apply]
  show Ideal.div _ (Ideal.ofBits .f32 0x00000000#32 + _) = _
  rw [Ideal.ofBits_zero_f32, zero_add]
  rfl

theorem v16_apply (X : FVec Ideal S4x8192x512 .f32) (W : FVec Ideal S512x512 .f32) (b : FVec Ideal S512 .f32)
    (n : Fin 4) (h : Fin 8) (l : Fin 8192) (d : Fin 64) :
    val_main_v16 (F := Ideal) X W b (ix4 n h l d) = Cert.Spec.heads (act X) (mat W) (bias b) n l h d := by
  rw [v16_smax]
  simp only [v5_apply]
  rfl

theorem v33_eq : @val_main_v33 Ideal _ = @val_main_v16 Ideal _ := rfl
theorem v68_eq : @val_main_v68 Ideal _ = @val_main_v16 Ideal _ := rfl
theorem v39_eq : @val_main_v39 Ideal _ = @val_main_v5 Ideal _ := rfl
theorem v74_eq : @val_main_v74 Ideal _ = @val_main_v5 Ideal _ := rfl

theorem v33_apply (X : FVec Ideal S4x8192x512 .f32) (W : FVec Ideal S512x512 .f32) (b : FVec Ideal S512 .f32)
    (n : Fin 4) (h : Fin 8) (l : Fin 8192) (d : Fin 64) :
    val_main_v33 (F := Ideal) X W b (ix4 n h l d) = Cert.Spec.heads (act X) (mat W) (bias b) n l h d := by
  rw [v33_eq, v16_apply]

theorem v39_apply (X : FVec Ideal S4x8192x512 .f32) (W : FVec Ideal S512x512 .f32) (b : FVec Ideal S512 .f32)
    (n : Fin 4) (h : Fin 8) (l : Fin 8192) (e : Fin 64) :
    val_main_v39 (F := Ideal) X W b (ix4 n h l e) = Cert.Spec.vals (act X) (mat W) (bias b) n l h e := by
  rw [v39_eq, v5_apply]; rfl

theorem idx_v40 (n : Fin 4) (h : Fin 8) (d : Fin 64) (k : Fin 8192) : idx_main_v40 (ix3 n h d) k = ix4 n h k d :=
  funext fun a => Fin.ext (by match a with | ⟨0, _⟩ => rfl | ⟨1, _⟩ => rfl | ⟨2, _⟩ => rfl | ⟨3, _⟩ => rfl)

theorem v40_apply (X : FVec Ideal S4x8192x512 .f32) (W : FVec Ideal S512x512 .f32) (b : FVec Ideal S512 .f32)
    (n : Fin 4) (h : Fin 8) (d : Fin 64) :
    val_main_v40 (F := Ideal) X W b (ix3 n h d) = Cert.Spec.ksum (Cert.Spec.heads (act X) (mat W) (bias b)) n h d := by
  rw [val_main_v40_apply, val_main_cst_5_apply]
  simp only [idx_v40, v33_apply]
  show Ideal.ofBits .f32 0x00000000#32 + _ = _
  rw [Ideal.ofBits_zero_f32, zero_add]
  rfl

theorem lidx_v48 (n : Fin 4) (h : Fin 8) (d e : Fin 64) (k : Fin 8192) : lidx_main_v48 (ix4 n h d e) k = ix4 n h k d :=
  funext fun a => Fin.ext (by match a with | ⟨0, _⟩ => rfl | ⟨1, _⟩ => rfl | ⟨2, _⟩ => rfl | ⟨3, _⟩ => rfl)
theorem ridx_v48 (n : Fin 4) (h : Fin 8) (d e : Fin 64) (k : Fin 8192) : ridx_main_v48 (ix4 n h d e) k = ix4 n h k e :=
  funext fun a => Fin.ext (by match a with | ⟨0, _⟩ => rfl | ⟨1, _⟩ => rfl | ⟨2, _⟩ => rfl | ⟨3, _⟩ => rfl)

theorem v48_apply (X : FVec Ideal S4x8192x512 .f32) (Wk : FVec Ideal S512x512 .f32) (bk : FVec Ideal S512 .f32)
    (Wv : FVec Ideal S512x512 .f32) (bv : FVec Ideal S512 .f32) (n : Fin 4) (h : Fin 8) (d e : Fin 64) :
    val_main_v48 (F := Ideal) X Wk bk Wv bv (ix4 n h d e)
      = Cert.Spec.kv (Cert.Spec.heads (act X) (mat Wk) (bias bk)) (Cert.Spec.vals (act X) (mat Wv) (bias bv)) n h d e := by
  rw [val_main_v48_apply]
  simp only [lidx_v48, ridx_v48, v33_apply, v39_apply]
  rfl

theorem idx_v41v42 (n : Fin 4) (h : Fin 8) (l : Fin 8192) (d : Fin 64) :
    idx_main_v41 (idx_main_v42 (ix4 n h l d)) = ix3 n h d :=
  funext fun a => Fin.ext (by match a with | ⟨0, _⟩ => rfl | ⟨1, _⟩ => rfl | ⟨2, _⟩ => rfl)
theorem idx_v44 (n : Fin 4) (h : Fin 8) (l : Fin 8192) (k : Fin 64) : idx_main_v44 (ix3 n h l) k = ix4 n h l k :=
  funext fun a => Fin.ext (by match a with | ⟨0, _⟩ => rfl | ⟨1, _⟩ => rfl | ⟨2, _⟩ => rfl | ⟨3, _⟩ => rfl)
theorem idx_v45v50 (n : Fin 4) (h : Fin 8) (l : Fin 8192) (e : Fin 64) :
    idx_main_v45 (idx_main_v50 (ix4 n h l e)) = ix3 n h l :=
  funext fun a => Fin.ext (by match a with | ⟨0, _⟩ => rfl | ⟨1, _⟩ => rfl | ⟨2, _⟩ => rfl)

theorem v50_apply (Xq Xf : FVec Ideal S4x8192x512 .f32) (Wq : FVec Ideal S512x512 .f32) (bq : FVec Ideal S512 .f32)
    (Wk : FVec Ideal S512x512 .f32) (bk : FVec Ideal S512 .f32) (n : Fin 4) (h : Fin 8) (l : Fin 8192) (e : Fin 64) :
    val_main_v50 (F := Ideal) Xq Xf Wq bq Wk bk (ix4 n h l e)
      = Ideal.div Cert.Spec.one (∑ d : Fin 64, Cert.Spec.heads (act Xq) (mat Wq) (bias bq) n l h d
          * Cert.Spec.ksum (Cert.Spec.heads (act Xf) (mat Wk) (bias bk)) n h d) := by
  rw [val_main_v50_apply, val_main_v47_apply, val_main_v46_apply, val_main_cst_7_apply, val_main_v45_apply, idx_v45v50,
    val_main_v44_apply, val_main_cst_6_apply]
  simp only [idx_v44, val_main_v43_apply, val_main_v42_apply, val_main_v41_apply, idx_v41v42, v16_apply, v40_apply]
  show Ideal.div _ (Ideal.ofBits .f32 0x00000000#32 + _) = _
  rw [Ideal.ofBits_zero_f32, zero_add]
  rfl

theorem lidx_v49 (n : Fin 4) (h : Fin 8) (l : Fin 8192) (e k : Fin 64) : lidx_main_v49 (ix4 n h l e) k = ix4 n h l k :=
  funext fun a => Fin.ext (by match a with | ⟨0, _⟩ => rfl | ⟨1, _⟩ => rfl | ⟨2, _⟩ => rfl | ⟨3, _⟩ => rfl)
theorem ridx_v49 (n : Fin 4) (h : Fin 8) (l : Fin 8192) (e k : Fin 64) : ridx_main_v49 (ix4 n h l e) k = ix4 n h k e :=
  funext fun a => Fin.ext (by match a with | ⟨0, _⟩ => rfl | ⟨1, _⟩ => rfl | ⟨2, _⟩ => rfl | ⟨3, _⟩ => rfl)

theorem v51_apply (Xq Xf : FVec Ideal S4x8192x512 .f32) (Wq : FVec Ideal S512x512 .f32) (bq : FVec Ideal S512 .f32)
    (Wk : FVec Ideal S512x512 .f32) (bk : FVec Ideal S512 .f32) (Wv : FVec Ideal S512x512 .f32) (bv : FVec Ideal S512 .f32)
    (n : Fin 4) (h : Fin 8) (l : Fin 8192) (e : Fin 64) :
    val_main_v51 (F := Ideal) Xq Xf Wq bq Wk bk Wv bv (ix4 n h l e)
      = Cert.Spec.att (Cert.Spec.heads (act Xq) (mat Wq) (bias bq))
          (Cert.Spec.ksum (Cert.Spec.heads (act Xf) (mat Wk) (bias bk)))
          (Cert.Spec.kv (Cert.Spec.heads (act Xf) (mat Wk) (bias bk)) (Cert.Spec.vals (act Xf) (mat Wv) (bias bv))) n l h e := by
  rw [val_main_v51_apply, v50_apply, val_main_v49_apply]
  simp only [lidx_v49, ridx_v49, v16_apply, v48_apply]
  rfl

theorem v86_eq : @val_main_v86 Ideal _ = @val_main_v51 Ideal _ := rfl

theorem v89_apply (a0 a1 a2 : FVec Ideal S4x8192x512 .f32) (a3 : FVec Ideal S512x512 .f32) (a4 : FVec Ideal S512 .f32)
    (a5 : FVec Ideal S512x512 .f32) (a6 : FVec Ideal S512 .f32) (a7 : FVec Ideal S512x512 .f32) (a8 : FVec Ideal S512 .f32)
    (a9 : FVec Ideal S512x512 .f32) (a10 : FVec Ideal S512 .f32) (a11 : FVec Ideal S512x512 .f32) (a12 : FVec Ideal S512 .f32)
    (n : Fin 4) (h : Fin 8) (l : Fin 8192) (e : Fin 64) :
    val_main_v89 (F := Ideal) a0 a1 a2 a3 a4 a5 a6 a7 a8 a9 a10 a11 a12 (ix4 n h l e)
      = Cert.Spec.half *
          (Cert.Spec.att (Cert.Spec.heads (act a0) (mat a3) (bias a4))
              (Cert.Spec.ksum (Cert.Spec.heads (act a1) (mat a5) (bias a6)))
              (Cert.Spec.kv (Cert.Spec.heads (act a1) (mat a5) (bias a6)) (Cert.Spec.vals (act a1) (mat a7) (bias a8))) n l h e
            + Cert.Spec.att (Cert.Spec.heads (act a0) (mat a3) (bias a4))
              (Cert.Spec.ksum (Cert.Spec.heads (act a2) (mat a9) (bias a10)))
              (Cert.Spec.kv (Cert.Spec.heads (act a2) (mat a9) (bias a10)) (Cert.Spec.vals (act a2) (mat a11) (bias a12))) n l h e) := by
  rw [val_main_v89_apply, val_main_v88_apply, val_main_cst_14_apply, val_main_v87_apply, v86_eq, v51_apply, v51_apply]
  rfl

theorem idx_v90v91 (n : Fin 4) (l : Fin 8192) (j : Fin 512) :
    idx_main_v90 (idx_main_v91 (ix3 n l j)) = ix4 n (⟨j.val / 64, by omega⟩ : Fin 8) l (⟨j.val % 64, by omega⟩ : Fin 64) :=
  funext fun a => Fin.ext (by
    have h0 := n.isLt; have h1 := l.isLt; have h2 := j.isLt
    match a with
    | ⟨0, _⟩ => show ((n.val * 8192 + l.val) * 512 + j.val) / 4194304 = n.val; omega
    | ⟨1, _⟩ => show ((n.val * 8192 + l.val) * 512 + j.val) / 64 % 8 = j.val / 64; omega
    | ⟨2, _⟩ => show ((n.val * 8192 + l.val) * 512 + j.val) / 512 % 8192 = l.val; omega
    | ⟨3, _⟩ => show ((n.val * 8192 + l.val) * 512 + j.val) % 64 = j.val % 64; omega)
theorem idx_v92v93 (n : Fin 4) (l : Fin 8192) (j : Fin 512) :
    idx_main_v92 (idx_main_v93 (ix3 n l j)) = ix4 n (⟨j.val / 64, by omega⟩ : Fin 8) l (⟨j.val % 64, by omega⟩ : Fin 64) :=
  funext fun a => Fin.ext (by
    have h0 := n.isLt; have h1 := l.isLt; have h2 := j.isLt
    match a with
    | ⟨0, _⟩ => show ((n.val * 8192 + l.val) * 512 + j.val) / 4194304 = n.val; omega
    | ⟨1, _⟩ => show ((n.val * 8192 + l.val) * 512 + j.val) / 64 % 8 = j.val / 64; omega
    | ⟨2, _⟩ => show ((n.val * 8192 + l.val) * 512 + j.val) / 512 % 8192 = l.val; omega
    | ⟨3, _⟩ => show ((n.val * 8192 + l.val) * 512 + j.val) % 64 = j.val % 64; omega)

theorem v94_apply (a0 a1 a2 : FVec Ideal S4x8192x512 .f32) (a3 : FVec Ideal S512x512 .f32) (a4 : FVec Ideal S512 .f32)
    (a5 : FVec Ideal S512x512 .f32) (a6 : FVec Ideal S512 .f32) (a7 : FVec Ideal S512x512 .f32) (a8 : FVec Ideal S512 .f32)
    (a9 : FVec Ideal S512x512 .f32) (a10 : FVec Ideal S512 .f32) (a11 : FVec Ideal S512x512 .f32) (a12 : FVec Ideal S512 .f32)
    (n : Fin 4) (l : Fin 8192) (j : Fin 512) :
    val_main_v94 (F := Ideal) a0 a1 a2 a3 a4 a5 a6 a7 a8 a9 a10 a11 a12 (ix3 n l j)
      = Cert.Spec.merge (Cert.Spec.resH (Cert.Spec.heads (act a0) (mat a3) (bias a4))
          (Cert.Spec.att (Cert.Spec.heads (act a0) (mat a3) (bias a4))
              (Cert.Spec.ksum (Cert.Spec.heads (act a1) (mat a5) (bias a6)))
              (Cert.Spec.kv (Cert.Spec.heads (act a1) (mat a5) (bias a6)) (Cert.Spec.vals (act a1) (mat a7) (bias a8))))
          (Cert.Spec.att (Cert.Spec.heads (act a0) (mat a3) (bias a4))
              (Cert.Spec.ksum (Cert.Spec.heads (act a2) (mat a9) (bias a10)))
              (Cert.Spec.kv (Cert.Spec.heads (act a2) (mat a9) (bias a10)) (Cert.Spec.vals (act a2) (mat a11) (bias a12))))) n l j := by
  rw [val_main_v94_apply, val_main_v91_apply, val_main_v90_apply, idx_v90v91, v16_apply,
    val_main_v93_apply, val_main_v92_apply, idx_v92v93, v89_apply]
  rfl

theorem v98_eq (a0 a1 a2 : FVec Ideal S4x8192x512 .f32) (a3 : FVec Ideal S512x512 .f32) (a4 : FVec Ideal S512 .f32)
    (a5 : FVec Ideal S512x512 .f32) (a6 : FVec Ideal S512 .f32) (a7 : FVec Ideal S512x512 .f32) (a8 : FVec Ideal S512 .f32)
    (a9 : FVec Ideal S512x512 .f32) (a10 : FVec Ideal S512 .f32) (a11 : FVec Ideal S512x512 .f32) (a12 : FVec Ideal S512 .f32)
    (a13 : FVec Ideal S512x512 .f32) (a14 : FVec Ideal S512 .f32) :
    val_main_v98 (F := Ideal) a0 a1 a2 a3 a4 a5 a6 a7 a8 a9 a10 a11 a12 a13 a14
      = val_main_v3 (F := Ideal) (val_main_v94 (F := Ideal) a0 a1 a2 a3 a4 a5 a6 a7 a8 a9 a10 a11 a12) a13 a14 := rfl

theorem result_eq (a0 a1 a2 : FVec Ideal S4x8192x512 .f32) (a3 : FVec Ideal S512x512 .f32) (a4 : FVec Ideal S512 .f32)
    (a5 : FVec Ideal S512x512 .f32) (a6 : FVec Ideal S512 .f32) (a7 : FVec Ideal S512x512 .f32) (a8 : FVec Ideal S512 .f32)
    (a9 : FVec Ideal S512x512 .f32) (a10 : FVec Ideal S512 .f32) (a11 : FVec Ideal S512x512 .f32) (a12 : FVec Ideal S512 .f32)
    (a13 : FVec Ideal S512x512 .f32) (a14 : FVec Ideal S512 .f32) :
    val_main_v98 (F := Ideal) a0 a1 a2 a3 a4 a5 a6 a7 a8 a9 a10 a11 a12 a13 a14
      = fun i => Cert.Spec.result (act a0) (act a1) (act a2) (mat a3) (bias a4) (mat a5) (bias a6) (mat a7) (bias a8)
          (mat a9) (bias a10) (mat a11) (bias a12) (mat a13) (bias a14) (i 0) (i 1) (i 2) := by
  funext i
  obtain ⟨n, l, o, rfl⟩ : ∃ (n : Fin 4) (l : Fin 8192) (o : Fin 512), i = ix3 n l o := ⟨i 0, i 1, i 2, eq_ix3 i⟩
  rw [v98_eq, v3_apply]
  have hres : act (val_main_v94 (F := Ideal) a0 a1 a2 a3 a4 a5 a6 a7 a8 a9 a10 a11 a12)
      = Cert.Spec.merge (Cert.Spec.resH (Cert.Spec.heads (act a0) (mat a3) (bias a4))
          (Cert.Spec.att (Cert.Spec.heads (act a0) (mat a3) (bias a4))
              (Cert.Spec.ksum (Cert.Spec.heads (act a1) (mat a5) (bias a6)))
              (Cert.Spec.kv (Cert.Spec.heads (act a1) (mat a5) (bias a6)) (Cert.Spec.vals (act a1) (mat a7) (bias a8))))
          (Cert.Spec.att (Cert.Spec.heads (act a0) (mat a3) (bias a4))
              (Cert.Spec.ksum (Cert.Spec.heads (act a2) (mat a9) (bias a10)))
              (Cert.Spec.kv (Cert.Spec.heads (act a2) (mat a9) (bias a10)) (Cert.Spec.vals (act a2) (mat a11) (bias a12))))) :=
    funext fun n => funext fun l => funext fun j => v94_apply a0 a1 a2 a3 a4 a5 a6 a7 a8 a9 a10 a11 a12 n l j
  rw [hres]
  rfl

end Cert.ReferenceIdeal.RefValue

end
-- ==== Proof.lean ====
import proofs.«425839_j19628000543020_3_alg».proof.Defs
import proofs.«425839_j19628000543020_3_alg».proof.Proof.Gen.Kernel
import proofs.«425839_j19628000543020_3_alg».proof.Proof.Gen.KernelIdeal
import proofs.«425839_j19628000543020_3_alg».proof.Proof.Gen.ReferenceIdeal
import proofs.«425839_j19628000543020_3_alg».proof.Proof.Gen.Pre_finite_inputs
import proofs.«425839_j19628000543020_3_alg».proof.Proof.KB.Run
import proofs.«425839_j19628000543020_3_alg».proof.Proof.KI.Final
import proofs.«425839_j19628000543020_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => (Cert.KernelIdeal.Hand.dat1 (F := Ideal) (Cert.KernelIdeal.Hand.X3 m ρ) c).arrAt 9 Cert.KernelIdeal.cfg1.N,
    Cert.KernelIdeal.Hand.run_values (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v98_eq m' c).trans ((Cert.ReferenceIdeal.RefValue.result_eq _ _ _ _ _ _ _ _ _ _ _ _ _ _ _).trans ?_)
  refine Eq.trans ?_ (Cert.KernelIdeal.Final.kernel_value_arr m ρ c).symm
  obtain ⟨h0, h1, h2, h3, h4, h5, h6, h7, h8, h9, h10, h11, h12, h13, h14⟩ := hagree c
  funext i
  try dsimp only
  rw [h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
